-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x600000 : Shape := ⟨2, ![3, 600000]⟩
abbrev S3x3x128x128 : Shape := ⟨4, ![3, 3, 128, 128]⟩
abbrev S3x3x128 : Shape := ⟨3, ![3, 3, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x3x128 : S_.BroadcastsInDim S3x3x128 (![] : Fin 0 → Fin S3x3x128.rank)
  reducesTo_S3x3x128_S_d0_1_2 : S3x3x128.ReducesTo [0, 1, 2] S_
  bcast_S_S3x128 : S_.BroadcastsInDim S3x128 (![] : Fin 0 → Fin S3x128.rank)
  reducesTo_S3x128_S_d0_1 : S3x128.ReducesTo [0, 1] S_
  bcast_S_S3x600000 : S_.BroadcastsInDim S3x600000 (![] : Fin 0 → Fin S3x600000.rank)
  reducesTo_S3x600000_S_d0_1 : S3x600000.ReducesTo [0, 1] S_

variable [Facts]

def fn_part2 {F : FTy → Type} [FloatOps F] (main_arg1 : IVec S3x600000 32) (main_v32 : IVec S_ 1) (main_c_12 : IVec S_ 32) : IVec S_ 1 :=
  let main_v33 : IVec S3x600000 32 := broadcastInDim S3x600000 ![] bcast_S_S3x600000 main_c_12
  let main_v34 : IVec S3x600000 1 := cmpi .slt main_arg1 main_v33
  let main_c_13 : IVec S_ 1 := constantI S_ 1 1#1
  let main_v35 : IVec S_ 1 := (fun x v => Host.reduce IntOp.andi x v reducesTo_S3x600000_S_d0_1 h_S_) main_v34 main_c_13
  let main_v36 : IVec S_ 1 := andi main_v32 main_v35
  main_v36

def fn_part1 {F : FTy → Type} [FloatOps F] (main_arg1 : IVec S3x600000 32) (main_arg6 : FVec F S3x128 .f32) (main_arg7 : FVec F S3x128 .f32) (main_v13 : IVec S_ 1) (main_v16 : IVec S3x3x128 1) : IVec S_ 1 :=
  let main_c_5 : IVec S_ 1 := constantI S_ 1 1#1
  let main_v17 : IVec S_ 1 := (fun x v => Host.reduce IntOp.andi x v reducesTo_S3x3x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_c_10 : IVec S_ 32 := constantI S_ 32 4294867296#32
  let main_v29 : IVec S3x600000 32 := broadcastInDim S3x600000 ![] bcast_S_S3x600000 main_c_10
  let main_v30 : IVec S3x600000 1 := cmpi .sge main_arg1 main_v29
  let main_c_11 : IVec S_ 1 := constantI S_ 1 1#1
  let main_v31 : IVec S_ 1 := (fun x v => Host.reduce IntOp.andi x v reducesTo_S3x600000_S_d0_1 h_S_) main_v30 main_c_11
  let main_v32 : IVec S_ 1 := andi main_v28 main_v31
  let main_c_12 : IVec S_ 32 := constantI S_ 32 100000#32
  fn_part2 (F := F) main_arg1 main_v32 main_c_12

def fn {F : FTy → Type} [FloatOps F] (main_arg0 : FVec F S100000x128 .f32) (main_arg1 : IVec S3x600000 32) (main_arg2 : IVec S3x600000 32) (main_arg3 : FVec F S3x3x128x128 .f32) (main_arg4 : FVec F S3x3x128x128 .f32) (main_arg5 : FVec F S3x3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x3x128x128 .f32 := Host.absf main_arg3
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  let main_v9 : FVec F S3x3x128x128 .f32 := Host.absf main_arg4
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S3x3x128 .f32 := Host.absf main_arg5
  let main_cst_4 : FVec F S_ .f32 := constant S_ .f32 0x7F800000#32
  let main_v15 : FVec F S3x3x128 .f32 := broadcastInDim S3x3x128 ![] bcast_S_S3x3x128 main_cst_4
  let main_v16 : IVec S3x3x128 1 := cmpf .olt main_v14 main_v15
  fn_part1 (F := F) main_arg1 main_arg6 main_arg7 main_v13 main_v16
-- ==== Kernel.lean ====
abbrev S100000x128 : Shape := ⟨2, ![100000, 128]⟩
abbrev S3x600000 : Shape := ⟨2, ![3, 600000]⟩
abbrev S3x3x128x128 : Shape := ⟨4, ![3, 3, 128, 128]⟩
abbrev S3x3x128 : Shape := ⟨3, ![3, 3, 128]⟩
abbrev S3x128 : Shape := ⟨2, ![3, 128]⟩
abbrev S_ : Shape := ⟨0, ![]⟩
abbrev S600000 : Shape := ⟨1, ![600000]⟩
abbrev S1x600000 : Shape := ⟨2, ![1, 600000]⟩
abbrev S100000 : Shape := ⟨1, ![100000]⟩
abbrev S600000x1 : Shape := ⟨2, ![600000, 1]⟩
abbrev S100000x1 : Shape := ⟨2, ![100000, 1]⟩
abbrev S1 : Shape := ⟨1, ![1]⟩
abbrev S1x1 : Shape := ⟨2, ![1, 1]⟩
abbrev S600000x128 : Shape := ⟨2, ![600000, 128]⟩
abbrev S1x3x128x128 : Shape := ⟨4, ![1, 3, 128, 128]⟩
abbrev S3x128x128 : Shape := ⟨3, ![3, 128, 128]⟩
abbrev S1x3x128 : Shape := ⟨3, ![1, 3, 128]⟩
abbrev S20x1x128 : Shape := ⟨3, ![20, 1, 128]⟩
abbrev S5000x128 : Shape := ⟨2, ![5000, 128]⟩
abbrev S5000x1 : Shape := ⟨2, ![5000, 1]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10x1x128 : Shape := ⟨3, ![10, 1, 128]⟩
abbrev S10000x128 : Shape := ⟨2, ![10000, 128]⟩

abbrev nBuf : Space → Nat
  | .hbm => 409
  | .vmem => 102
  | .smem => 0
  | _ => 0

abbrev hbmTy0_0 (i : Nat) : BufTy := match i % 128 with
  | 0 => ⟨S100000x128, .f32⟩
  | 1 => ⟨S3x600000, .i32⟩
  | 2 => ⟨S3x600000, .i32⟩
  | 3 => ⟨S3x3x128x128, .f32⟩
  | 4 => ⟨S3x3x128x128, .f32⟩
  | 5 => ⟨S3x3x128, .f32⟩
  | 6 => ⟨S3x128, .f32⟩
  | 7 => ⟨S3x128, .f32⟩
  | 8 => ⟨S_, .f32⟩
  | 9 => ⟨S600000, .f32⟩
  | 10 => ⟨S1x600000, .i32⟩
  | 11 => ⟨S600000, .i32⟩
  | 12 => ⟨S_, .f32⟩
  | 13 => ⟨S100000, .f32⟩
  | 14 => ⟨S600000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S1x600000, .i32⟩
  | 21 => ⟨S600000, .i32⟩
  | 22 => ⟨S_, .f32⟩
  | 23 => ⟨S100000, .f32⟩
  | 24 => ⟨S600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S1x600000, .i32⟩
  | 31 => ⟨S600000, .i32⟩
  | 32 => ⟨S_, .f32⟩
  | 33 => ⟨S100000, .f32⟩
  | 34 => ⟨S600000x1, .i32⟩
  | 35 => ⟨S100000, .f32⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S_, .f32⟩
  | 45 => ⟨S100000, .f32⟩
  | 46 => ⟨S100000, .f32⟩
  | 47 => ⟨S100000x1, .f32⟩
  | 48 => ⟨S_, .f32⟩
  | 49 => ⟨S100000, .f32⟩
  | 50 => ⟨S100000, .f32⟩
  | 51 => ⟨S100000x1, .f32⟩
  | 52 => ⟨S1x600000, .i32⟩
  | 53 => ⟨S600000, .i32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S1, .i32⟩
  | 63 => ⟨S_, .i32⟩
  | 64 => ⟨S600000x1, .i32⟩
  | 65 => ⟨S600000x1, .i1⟩
  | 66 => ⟨S1x1, .i32⟩
  | 67 => ⟨S600000x1, .i32⟩
  | 68 => ⟨S600000x1, .i1⟩
  | 69 => ⟨S600000x1, .i1⟩
  | 70 => ⟨S_, .i1⟩
  | 71 => ⟨S600000, .i1⟩
  | 72 => ⟨S600000x128, .f32⟩
  | 73 => ⟨S600000x128, .i1⟩
  | 74 => ⟨S_, .f32⟩
  | 75 => ⟨S600000x128, .f32⟩
  | 76 => ⟨S600000x128, .f32⟩
  | 77 => ⟨S1x600000, .i32⟩
  | 78 => ⟨S600000, .i32⟩
  | 79 => ⟨S_, .f32⟩
  | 80 => ⟨S100000x128, .f32⟩
  | 81 => ⟨S600000x1, .i32⟩
  | 82 => ⟨S100000x128, .f32⟩
  | 83 => ⟨S1x600000, .i32⟩
  | 84 => ⟨S600000, .i32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S1, .i32⟩
  | 94 => ⟨S_, .i32⟩
  | 95 => ⟨S600000x1, .i32⟩
  | 96 => ⟨S600000x1, .i1⟩
  | 97 => ⟨S1x1, .i32⟩
  | 98 => ⟨S600000x1, .i32⟩
  | 99 => ⟨S600000x1, .i1⟩
  | 100 => ⟨S600000x1, .i1⟩
  | 101 => ⟨S_, .i1⟩
  | 102 => ⟨S600000, .i1⟩
  | 103 => ⟨S600000x128, .f32⟩
  | 104 => ⟨S600000x128, .i1⟩
  | 105 => ⟨S_, .f32⟩
  | 106 => ⟨S600000x128, .f32⟩
  | 107 => ⟨S600000x128, .f32⟩
  | 108 => ⟨S1x600000, .i32⟩
  | 109 => ⟨S600000, .i32⟩
  | 110 => ⟨S_, .f32⟩
  | 111 => ⟨S100000x128, .f32⟩
  | 112 => ⟨S600000x1, .i32⟩
  | 113 => ⟨S100000x128, .f32⟩
  | 114 => ⟨S1x600000, .i32⟩
  | 115 => ⟨S600000, .i32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S1, .i32⟩
  | 125 => ⟨S_, .i32⟩
  | 126 => ⟨S600000x1, .i32⟩
  | 127 => ⟨S600000x1, .i1⟩
  | _ => ⟨S100000x128, .f32⟩

abbrev hbmTy0_1 (i : Nat) : BufTy := match i % 128 with
  | 0 => ⟨S1x1, .i32⟩
  | 1 => ⟨S600000x1, .i32⟩
  | 2 => ⟨S600000x1, .i1⟩
  | 3 => ⟨S600000x1, .i1⟩
  | 4 => ⟨S_, .i1⟩
  | 5 => ⟨S600000, .i1⟩
  | 6 => ⟨S600000x128, .f32⟩
  | 7 => ⟨S600000x128, .i1⟩
  | 8 => ⟨S_, .f32⟩
  | 9 => ⟨S600000x128, .f32⟩
  | 10 => ⟨S600000x128, .f32⟩
  | 11 => ⟨S1x600000, .i32⟩
  | 12 => ⟨S600000, .i32⟩
  | 13 => ⟨S_, .f32⟩
  | 14 => ⟨S100000x128, .f32⟩
  | 15 => ⟨S600000x1, .i32⟩
  | 16 => ⟨S100000x128, .f32⟩
  | 17 => ⟨S1x3x128x128, .f32⟩
  | 18 => ⟨S3x128x128, .f32⟩
  | 19 => ⟨S1x3x128x128, .f32⟩
  | 20 => ⟨S3x128x128, .f32⟩
  | 21 => ⟨S1x3x128, .f32⟩
  | 22 => ⟨S3x128, .f32⟩
  | 23 => ⟨S100000x128, .f32⟩
  | 24 => ⟨S20x1x128, .f32⟩
  | 25 => ⟨S_, .f32⟩
  | 26 => ⟨S1x128, .f32⟩
  | 27 => ⟨S_, .f32⟩
  | 28 => ⟨S1x128, .f32⟩
  | 29 => ⟨S1x128, .f32⟩
  | 30 => ⟨S10x1x128, .f32⟩
  | 31 => ⟨S_, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S100000x128, .f32⟩
  | 43 => ⟨S1x600000, .i32⟩
  | 44 => ⟨S600000, .i32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S1, .i32⟩
  | 54 => ⟨S_, .i32⟩
  | 55 => ⟨S600000x1, .i32⟩
  | 56 => ⟨S600000x1, .i1⟩
  | 57 => ⟨S1x1, .i32⟩
  | 58 => ⟨S600000x1, .i32⟩
  | 59 => ⟨S600000x1, .i1⟩
  | 60 => ⟨S600000x1, .i1⟩
  | 61 => ⟨S_, .i1⟩
  | 62 => ⟨S600000, .i1⟩
  | 63 => ⟨S600000x128, .f32⟩
  | 64 => ⟨S600000x128, .i1⟩
  | 65 => ⟨S_, .f32⟩
  | 66 => ⟨S600000x128, .f32⟩
  | 67 => ⟨S600000x128, .f32⟩
  | 68 => ⟨S1x600000, .i32⟩
  | 69 => ⟨S600000, .i32⟩
  | 70 => ⟨S_, .f32⟩
  | 71 => ⟨S100000x128, .f32⟩
  | 72 => ⟨S600000x1, .i32⟩
  | 73 => ⟨S100000x128, .f32⟩
  | 74 => ⟨S1x600000, .i32⟩
  | 75 => ⟨S600000, .i32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S1, .i32⟩
  | 85 => ⟨S_, .i32⟩
  | 86 => ⟨S600000x1, .i32⟩
  | 87 => ⟨S600000x1, .i1⟩
  | 88 => ⟨S1x1, .i32⟩
  | 89 => ⟨S600000x1, .i32⟩
  | 90 => ⟨S600000x1, .i1⟩
  | 91 => ⟨S600000x1, .i1⟩
  | 92 => ⟨S_, .i1⟩
  | 93 => ⟨S600000, .i1⟩
  | 94 => ⟨S600000x128, .f32⟩
  | 95 => ⟨S600000x128, .i1⟩
  | 96 => ⟨S_, .f32⟩
  | 97 => ⟨S600000x128, .f32⟩
  | 98 => ⟨S600000x128, .f32⟩
  | 99 => ⟨S1x600000, .i32⟩
  | 100 => ⟨S600000, .i32⟩
  | 101 => ⟨S_, .f32⟩
  | 102 => ⟨S100000x128, .f32⟩
  | 103 => ⟨S600000x1, .i32⟩
  | 104 => ⟨S100000x128, .f32⟩
  | 105 => ⟨S1x600000, .i32⟩
  | 106 => ⟨S600000, .i32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S1, .i32⟩
  | 116 => ⟨S_, .i32⟩
  | 117 => ⟨S600000x1, .i32⟩
  | 118 => ⟨S600000x1, .i1⟩
  | 119 => ⟨S1x1, .i32⟩
  | 120 => ⟨S600000x1, .i32⟩
  | 121 => ⟨S600000x1, .i1⟩
  | 122 => ⟨S600000x1, .i1⟩
  | 123 => ⟨S_, .i1⟩
  | 124 => ⟨S600000, .i1⟩
  | 125 => ⟨S600000x128, .f32⟩
  | 126 => ⟨S600000x128, .i1⟩
  | 127 => ⟨S_, .f32⟩
  | _ => ⟨S100000x128, .f32⟩

abbrev hbmTy0_2 (i : Nat) : BufTy := match i % 128 with
  | 0 => ⟨S600000x128, .f32⟩
  | 1 => ⟨S600000x128, .f32⟩
  | 2 => ⟨S1x600000, .i32⟩
  | 3 => ⟨S600000, .i32⟩
  | 4 => ⟨S_, .f32⟩
  | 5 => ⟨S100000x128, .f32⟩
  | 6 => ⟨S600000x1, .i32⟩
  | 7 => ⟨S100000x128, .f32⟩
  | 8 => ⟨S1x3x128x128, .f32⟩
  | 9 => ⟨S3x128x128, .f32⟩
  | 10 => ⟨S1x3x128x128, .f32⟩
  | 11 => ⟨S3x128x128, .f32⟩
  | 12 => ⟨S1x3x128, .f32⟩
  | 13 => ⟨S3x128, .f32⟩
  | 14 => ⟨S100000x128, .f32⟩
  | 15 => ⟨S20x1x128, .f32⟩
  | 16 => ⟨S_, .f32⟩
  | 17 => ⟨S1x128, .f32⟩
  | 18 => ⟨S_, .f32⟩
  | 19 => ⟨S1x128, .f32⟩
  | 20 => ⟨S1x128, .f32⟩
  | 21 => ⟨S10x1x128, .f32⟩
  | 22 => ⟨S_, .f32⟩
  | 23 => ⟨S1x128, .f32⟩
  | 24 => ⟨S_, .f32⟩
  | 25 => ⟨S1x128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S100000x128, .f32⟩
  | 34 => ⟨S1x600000, .i32⟩
  | 35 => ⟨S600000, .i32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S1, .i32⟩
  | 45 => ⟨S_, .i32⟩
  | 46 => ⟨S600000x1, .i32⟩
  | 47 => ⟨S600000x1, .i1⟩
  | 48 => ⟨S1x1, .i32⟩
  | 49 => ⟨S600000x1, .i32⟩
  | 50 => ⟨S600000x1, .i1⟩
  | 51 => ⟨S600000x1, .i1⟩
  | 52 => ⟨S_, .i1⟩
  | 53 => ⟨S600000, .i1⟩
  | 54 => ⟨S600000x128, .f32⟩
  | 55 => ⟨S600000x128, .i1⟩
  | 56 => ⟨S_, .f32⟩
  | 57 => ⟨S600000x128, .f32⟩
  | 58 => ⟨S600000x128, .f32⟩
  | 59 => ⟨S1x600000, .i32⟩
  | 60 => ⟨S600000, .i32⟩
  | 61 => ⟨S_, .f32⟩
  | 62 => ⟨S100000x128, .f32⟩
  | 63 => ⟨S600000x1, .i32⟩
  | 64 => ⟨S100000x128, .f32⟩
  | 65 => ⟨S1x600000, .i32⟩
  | 66 => ⟨S600000, .i32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S1, .i32⟩
  | 76 => ⟨S_, .i32⟩
  | 77 => ⟨S600000x1, .i32⟩
  | 78 => ⟨S600000x1, .i1⟩
  | 79 => ⟨S1x1, .i32⟩
  | 80 => ⟨S600000x1, .i32⟩
  | 81 => ⟨S600000x1, .i1⟩
  | 82 => ⟨S600000x1, .i1⟩
  | 83 => ⟨S_, .i1⟩
  | 84 => ⟨S600000, .i1⟩
  | 85 => ⟨S600000x128, .f32⟩
  | 86 => ⟨S600000x128, .i1⟩
  | 87 => ⟨S_, .f32⟩
  | 88 => ⟨S600000x128, .f32⟩
  | 89 => ⟨S600000x128, .f32⟩
  | 90 => ⟨S1x600000, .i32⟩
  | 91 => ⟨S600000, .i32⟩
  | 92 => ⟨S_, .f32⟩
  | 93 => ⟨S100000x128, .f32⟩
  | 94 => ⟨S600000x1, .i32⟩
  | 95 => ⟨S100000x128, .f32⟩
  | 96 => ⟨S1x600000, .i32⟩
  | 97 => ⟨S600000, .i32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S1, .i32⟩
  | 107 => ⟨S_, .i32⟩
  | 108 => ⟨S600000x1, .i32⟩
  | 109 => ⟨S600000x1, .i1⟩
  | 110 => ⟨S1x1, .i32⟩
  | 111 => ⟨S600000x1, .i32⟩
  | 112 => ⟨S600000x1, .i1⟩
  | 113 => ⟨S600000x1, .i1⟩
  | 114 => ⟨S_, .i1⟩
  | 115 => ⟨S600000, .i1⟩
  | 116 => ⟨S600000x128, .f32⟩
  | 117 => ⟨S600000x128, .i1⟩
  | 118 => ⟨S_, .f32⟩
  | 119 => ⟨S600000x128, .f32⟩
  | 120 => ⟨S600000x128, .f32⟩
  | 121 => ⟨S1x600000, .i32⟩
  | 122 => ⟨S600000, .i32⟩
  | 123 => ⟨S_, .f32⟩
  | 124 => ⟨S100000x128, .f32⟩
  | 125 => ⟨S600000x1, .i32⟩
  | 126 => ⟨S100000x128, .f32⟩
  | 127 => ⟨S1x3x128x128, .f32⟩
  | _ => ⟨S100000x128, .f32⟩

abbrev hbmTy0_3 (i : Nat) : BufTy := match i % 128 with
  | 0 => ⟨S3x128x128, .f32⟩
  | 1 => ⟨S1x3x128x128, .f32⟩
  | 2 => ⟨S3x128x128, .f32⟩
  | 3 => ⟨S1x3x128, .f32⟩
  | 4 => ⟨S3x128, .f32⟩
  | 5 => ⟨S100000x128, .f32⟩
  | 6 => ⟨S20x1x128, .f32⟩
  | 7 => ⟨S_, .f32⟩
  | 8 => ⟨S1x128, .f32⟩
  | 9 => ⟨S_, .f32⟩
  | 10 => ⟨S1x128, .f32⟩
  | 11 => ⟨S1x128, .f32⟩
  | 12 => ⟨S10x1x128, .f32⟩
  | 13 => ⟨S_, .f32⟩
  | 14 => ⟨S1x128, .f32⟩
  | 15 => ⟨S_, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S3x128x128, .f32⟩
  | .local _ .vmem, ⟨15, _⟩ => ⟨S3x128x128, .f32⟩
  | .local _ .vmem, ⟨16, _⟩ => ⟨S3x128, .f32⟩
  | .local _ .vmem, ⟨17, _⟩ => ⟨S5000x128, .f32⟩
  | .local _ .vmem, ⟨18, _⟩ => ⟨S5000x128, .f32⟩
  | .local _ .vmem, ⟨19, _⟩ => ⟨S1x1x128, .f32⟩
  | .local _ .vmem, ⟨20, _⟩ => ⟨S1x1x128, .f32⟩
  | .local _ .vmem, ⟨21, _⟩ => ⟨S10000x128, .f32⟩
  | .local _ .vmem, ⟨22, _⟩ => ⟨S10000x128, .f32⟩
  | .local _ .vmem, ⟨23, _⟩ => ⟨S1x128, .f32⟩
  | .local _ .vmem, ⟨24, _⟩ => ⟨S1x1x128, .f32⟩
  | .local _ .vmem, ⟨25, _⟩ => ⟨S1x1x128, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S5000x1, .f32⟩
  | .local _ .vmem, ⟨45, _⟩ => ⟨S5000x1, .f32⟩
  | .local _ .vmem, ⟨46, _⟩ => ⟨S5000x1, .f32⟩
  | .local _ .vmem, ⟨47, _⟩ => ⟨S5000x1, .f32⟩
  | .local _ .vmem, ⟨48, _⟩ => ⟨S3x128x128, .f32⟩
  | .local _ .vmem, ⟨49, _⟩ => ⟨S3x128x128, .f32⟩
  | .local _ .vmem, ⟨50, _⟩ => ⟨S3x128, .f32⟩
  | .local _ .vmem, ⟨51, _⟩ => ⟨S5000x128, .f32⟩
  | .local _ .vmem, ⟨52, _⟩ => ⟨S5000x128, .f32⟩
  | .local _ .vmem, ⟨53, _⟩ => ⟨S1x1x128, .f32⟩
  | .local _ .vmem, ⟨54, _⟩ => ⟨S1x1x128, .f32⟩
  | .local _ .vmem, ⟨55, _⟩ => ⟨S10000x128, .f32⟩
  | .local _ .vmem, ⟨56, _⟩ => ⟨S10000x128, .f32⟩
  | .local _ .vmem, ⟨57, _⟩ => ⟨S1x128, .f32⟩
  | .local _ .vmem, ⟨58, _⟩ => ⟨S1x1x128, .f32⟩
  | .local _ .vmem, ⟨59, _⟩ => ⟨S1x1x128, .f32⟩
  | .local _ .vmem, ⟨60, _⟩ => ⟨S10000x128, .f32⟩
  | .local _ .vmem, ⟨61, _⟩ => ⟨S10000x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S10000x128, .f32⟩
  | .local _ .vmem, ⟨67, _⟩ => ⟨S10000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x1, .f32⟩
  | .local _ .vmem, ⟨77, _⟩ => ⟨S5000x1, .f32⟩
  | .local _ .vmem, ⟨78, _⟩ => ⟨S5000x1, .f32⟩
  | .local _ .vmem, ⟨79, _⟩ => ⟨S5000x1, .f32⟩
  | .local _ .vmem, ⟨80, _⟩ => ⟨S5000x1, .f32⟩
  | .local _ .vmem, ⟨81, _⟩ => ⟨S5000x1, .f32⟩
  | .local _ .vmem, ⟨82, _⟩ => ⟨S3x128x128, .f32⟩
  | .local _ .vmem, ⟨83, _⟩ => ⟨S3x128x128, .f32⟩
  | .local _ .vmem, ⟨84, _⟩ => ⟨S3x128, .f32⟩
  | .local _ .vmem, ⟨85, _⟩ => ⟨S5000x128, .f32⟩
  | .local _ .vmem, ⟨86, _⟩ => ⟨S5000x128, .f32⟩
  | .local _ .vmem, ⟨87, _⟩ => ⟨S1x1x128, .f32⟩
  | .local _ .vmem, ⟨88, _⟩ => ⟨S1x1x128, .f32⟩
  | .local _ .vmem, ⟨89, _⟩ => ⟨S10000x128, .f32⟩
  | .local _ .vmem, ⟨90, _⟩ => ⟨S10000x128, .f32⟩
  | .local _ .vmem, ⟨91, _⟩ => ⟨S1x128, .f32⟩
  | .local _ .vmem, ⟨92, _⟩ => ⟨S1x1x128, .f32⟩
  | .local _ .vmem, ⟨93, _⟩ => ⟨S1x1x128, .f32⟩
  | .local _ .vmem, ⟨94, _⟩ => ⟨S10000x128, .f32⟩
  | .local _ .vmem, ⟨95, _⟩ => ⟨S10000x128, .f32⟩
  | .local _ .vmem, ⟨96, _⟩ => ⟨S1x128, .f32⟩
  | .local _ .vmem, ⟨97, _⟩ => ⟨S1x128, .f32⟩
  | .local _ .vmem, ⟨98, _⟩ => ⟨S1x128, .f32⟩
  | .local _ .vmem, ⟨99, _⟩ => ⟨S1x128, .f32⟩
  | .local _ .vmem, ⟨100, _⟩ => ⟨S10000x128, .f32⟩
  | .local _ .vmem, ⟨101, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_9 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c_1 : Ref sig .tc := ⟨.hbm, 93, rfl⟩
abbrev main_call4_c_2 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_3 : Ref sig .tc := ⟨.hbm, 101, rfl⟩
abbrev main_call4_v12 : Ref sig .tc := ⟨.hbm, 102, rfl⟩
abbrev main_call4_v13 : Ref sig .tc := ⟨.hbm, 103, rfl⟩
abbrev main_call4_v14 : Ref sig .tc := ⟨.hbm, 104, rfl⟩
abbrev main_call4_cst : Ref sig .tc := ⟨.hbm, 105, rfl⟩
abbrev main_call4_v15 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_cst_10 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call5_c : Ref sig .tc := ⟨.hbm, 116, rfl⟩
abbrev main_call5_v0 : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_c_1 : Ref sig .tc := ⟨.hbm, 124, rfl⟩
abbrev main_call5_c_2 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_c_3 : Ref sig .tc := ⟨.hbm, 132, rfl⟩
abbrev main_call5_v12 : Ref sig .tc := ⟨.hbm, 133, rfl⟩
abbrev main_call5_v13 : Ref sig .tc := ⟨.hbm, 134, rfl⟩
abbrev main_call5_v14 : Ref sig .tc := ⟨.hbm, 135, rfl⟩
abbrev main_call5_cst : Ref sig .tc := ⟨.hbm, 136, rfl⟩
abbrev main_call5_v15 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_cst_11 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58_0 : Ref sig .tc := ⟨.hbm, 151, rfl⟩
abbrev main_v58_1 : Ref sig .tc := ⟨.hbm, 152, rfl⟩
abbrev main_cst_12 : Ref sig .tc := ⟨.hbm, 153, rfl⟩
abbrev main_v59 : Ref sig .tc := ⟨.hbm, 154, rfl⟩
abbrev main_cst_13 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_cst_14 : Ref sig .tc := ⟨.hbm, 159, rfl⟩
abbrev main_v63 : Ref sig .tc := ⟨.hbm, 160, rfl⟩
abbrev main_cst_15 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_call6_c : Ref sig .tc := ⟨.hbm, 173, rfl⟩
abbrev main_call6_v0 : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_v5 : Ref sig .tc := ⟨.hbm, 180, rfl⟩
abbrev main_call6_c_1 : Ref sig .tc := ⟨.hbm, 181, rfl⟩
abbrev main_call6_c_2 : Ref sig .tc := ⟨.hbm, 182, rfl⟩
abbrev main_call6_v6 : Ref sig .tc := ⟨.hbm, 183, rfl⟩
abbrev main_call6_v7 : Ref sig .tc := ⟨.hbm, 184, rfl⟩
abbrev main_call6_v8 : Ref sig .tc := ⟨.hbm, 185, rfl⟩
abbrev main_call6_v9 : Ref sig .tc := ⟨.hbm, 186, rfl⟩
abbrev main_call6_v10 : Ref sig .tc := ⟨.hbm, 187, rfl⟩
abbrev main_call6_v11 : Ref sig .tc := ⟨.hbm, 188, rfl⟩
abbrev main_call6_c_3 : Ref sig .tc := ⟨.hbm, 189, rfl⟩
abbrev main_call6_v12 : Ref sig .tc := ⟨.hbm, 190, rfl⟩
abbrev main_call6_v13 : Ref sig .tc := ⟨.hbm, 191, rfl⟩
abbrev main_call6_v14 : Ref sig .tc := ⟨.hbm, 192, rfl⟩
abbrev main_call6_cst : Ref sig .tc := ⟨.hbm, 193, rfl⟩
abbrev main_call6_v15 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_cst_16 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_cst_17 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_call8_c : Ref sig .tc := ⟨.hbm, 235, rfl⟩
abbrev main_call8_v0 : Ref sig .tc := ⟨.hbm, 236, rfl⟩
abbrev main_call8_v1 : Ref sig .tc := ⟨.hbm, 237, rfl⟩
abbrev main_call8_c_0 : Ref sig .tc := ⟨.hbm, 238, rfl⟩
abbrev main_call8_v2 : Ref sig .tc := ⟨.hbm, 239, rfl⟩
abbrev main_call8_v3 : Ref sig .tc := ⟨.hbm, 240, rfl⟩
abbrev main_call8_v4 : Ref sig .tc := ⟨.hbm, 241, rfl⟩
abbrev main_call8_v5 : Ref sig .tc := ⟨.hbm, 242, rfl⟩
abbrev main_call8_c_1 : Ref sig .tc := ⟨.hbm, 243, rfl⟩
abbrev main_call8_c_2 : Ref sig .tc := ⟨.hbm, 244, rfl⟩
abbrev main_call8_v6 : Ref sig .tc := ⟨.hbm, 245, rfl⟩
abbrev main_call8_v7 : Ref sig .tc := ⟨.hbm, 246, rfl⟩
abbrev main_call8_v8 : Ref sig .tc := ⟨.hbm, 247, rfl⟩
abbrev main_call8_v9 : Ref sig .tc := ⟨.hbm, 248, rfl⟩
abbrev main_call8_v10 : Ref sig .tc := ⟨.hbm, 249, rfl⟩
abbrev main_call8_v11 : Ref sig .tc := ⟨.hbm, 250, rfl⟩
abbrev main_call8_c_3 : Ref sig .tc := ⟨.hbm, 251, rfl⟩
abbrev main_call8_v12 : Ref sig .tc := ⟨.hbm, 252, rfl⟩
abbrev main_call8_v13 : Ref sig .tc := ⟨.hbm, 253, rfl⟩
abbrev main_call8_v14 : Ref sig .tc := ⟨.hbm, 254, rfl⟩
abbrev main_call8_cst : Ref sig .tc := ⟨.hbm, 255, rfl⟩
abbrev main_call8_v15 : Ref sig .tc := ⟨.hbm, 256, rfl⟩
abbrev main_v91 : Ref sig .tc := ⟨.hbm, 257, rfl⟩
abbrev main_v92 : Ref sig .tc := ⟨.hbm, 258, rfl⟩
abbrev main_v93 : Ref sig .tc := ⟨.hbm, 259, rfl⟩
abbrev main_cst_18 : Ref sig .tc := ⟨.hbm, 260, rfl⟩
abbrev main_v94 : Ref sig .tc := ⟨.hbm, 261, rfl⟩
abbrev main_v95 : Ref sig .tc := ⟨.hbm, 262, rfl⟩
abbrev main_v96 : Ref sig .tc := ⟨.hbm, 263, rfl⟩
abbrev main_v97 : Ref sig .tc := ⟨.hbm, 264, rfl⟩
abbrev main_v98 : Ref sig .tc := ⟨.hbm, 265, rfl⟩
abbrev main_v99 : Ref sig .tc := ⟨.hbm, 266, rfl⟩
abbrev main_v100 : Ref sig .tc := ⟨.hbm, 267, rfl⟩
abbrev main_v101 : Ref sig .tc := ⟨.hbm, 268, rfl⟩
abbrev main_v102 : Ref sig .tc := ⟨.hbm, 269, rfl⟩
abbrev main_v103_0 : Ref sig .tc := ⟨.hbm, 270, rfl⟩
abbrev main_v103_1 : Ref sig .tc := ⟨.hbm, 271, rfl⟩
abbrev main_cst_19 : Ref sig .tc := ⟨.hbm, 272, rfl⟩
abbrev main_v104 : Ref sig .tc := ⟨.hbm, 273, rfl⟩
abbrev main_cst_20 : Ref sig .tc := ⟨.hbm, 274, rfl⟩
abbrev main_v105 : Ref sig .tc := ⟨.hbm, 275, rfl⟩
abbrev main_v106 : Ref sig .tc := ⟨.hbm, 276, rfl⟩
abbrev main_v107 : Ref sig .tc := ⟨.hbm, 277, rfl⟩
abbrev main_cst_21 : Ref sig .tc := ⟨.hbm, 278, rfl⟩
abbrev main_v108 : Ref sig .tc := ⟨.hbm, 279, rfl⟩
abbrev main_cst_22 : Ref sig .tc := ⟨.hbm, 280, rfl⟩
abbrev main_v109 : Ref sig .tc := ⟨.hbm, 281, rfl⟩
abbrev main_v110 : Ref sig .tc := ⟨.hbm, 282, rfl⟩
abbrev main_v111 : Ref sig .tc := ⟨.hbm, 283, rfl⟩
abbrev main_v112 : Ref sig .tc := ⟨.hbm, 284, rfl⟩
abbrev main_v113 : Ref sig .tc := ⟨.hbm, 285, rfl⟩
abbrev main_v114 : Ref sig .tc := ⟨.hbm, 286, rfl⟩
abbrev main_v115 : Ref sig .tc := ⟨.hbm, 287, rfl⟩
abbrev main_v116 : Ref sig .tc := ⟨.hbm, 288, rfl⟩
abbrev main_v117 : Ref sig .tc := ⟨.hbm, 289, rfl⟩
abbrev main_v118 : Ref sig .tc := ⟨.hbm, 290, rfl⟩
abbrev main_v119 : Ref sig .tc := ⟨.hbm, 291, rfl⟩
abbrev main_call9_c : Ref sig .tc := ⟨.hbm, 292, rfl⟩
abbrev main_call9_v0 : Ref sig .tc := ⟨.hbm, 293, rfl⟩
abbrev main_call9_v1 : Ref sig .tc := ⟨.hbm, 294, rfl⟩
abbrev main_call9_c_0 : Ref sig .tc := ⟨.hbm, 295, rfl⟩
abbrev main_call9_v2 : Ref sig .tc := ⟨.hbm, 296, rfl⟩
abbrev main_call9_v3 : Ref sig .tc := ⟨.hbm, 297, rfl⟩
abbrev main_call9_v4 : Ref sig .tc := ⟨.hbm, 298, rfl⟩
abbrev main_call9_v5 : Ref sig .tc := ⟨.hbm, 299, rfl⟩
abbrev main_call9_c_1 : Ref sig .tc := ⟨.hbm, 300, rfl⟩
abbrev main_call9_c_2 : Ref sig .tc := ⟨.hbm, 301, rfl⟩
abbrev main_call9_v6 : Ref sig .tc := ⟨.hbm, 302, rfl⟩
abbrev main_call9_v7 : Ref sig .tc := ⟨.hbm, 303, rfl⟩
abbrev main_call9_v8 : Ref sig .tc := ⟨.hbm, 304, rfl⟩
abbrev main_call9_v9 : Ref sig .tc := ⟨.hbm, 305, rfl⟩
abbrev main_call9_v10 : Ref sig .tc := ⟨.hbm, 306, rfl⟩
abbrev main_call9_v11 : Ref sig .tc := ⟨.hbm, 307, rfl⟩
abbrev main_call9_c_3 : Ref sig .tc := ⟨.hbm, 308, rfl⟩
abbrev main_call9_v12 : Ref sig .tc := ⟨.hbm, 309, rfl⟩
abbrev main_call9_v13 : Ref sig .tc := ⟨.hbm, 310, rfl⟩
abbrev main_call9_v14 : Ref sig .tc := ⟨.hbm, 311, rfl⟩
abbrev main_call9_cst : Ref sig .tc := ⟨.hbm, 312, rfl⟩
abbrev main_call9_v15 : Ref sig .tc := ⟨.hbm, 313, rfl⟩
abbrev main_v120 : Ref sig .tc := ⟨.hbm, 314, rfl⟩
abbrev main_v121 : Ref sig .tc := ⟨.hbm, 315, rfl⟩
abbrev main_v122 : Ref sig .tc := ⟨.hbm, 316, rfl⟩
abbrev main_cst_23 : Ref sig .tc := ⟨.hbm, 317, rfl⟩
abbrev main_v123 : Ref sig .tc := ⟨.hbm, 318, rfl⟩
abbrev main_v124 : Ref sig .tc := ⟨.hbm, 319, rfl⟩
abbrev main_v125 : Ref sig .tc := ⟨.hbm, 320, rfl⟩
abbrev main_v126 : Ref sig .tc := ⟨.hbm, 321, rfl⟩
abbrev main_v127 : Ref sig .tc := ⟨.hbm, 322, rfl⟩
abbrev main_call10_c : Ref sig .tc := ⟨.hbm, 323, rfl⟩
abbrev main_call10_v0 : Ref sig .tc := ⟨.hbm, 324, rfl⟩
abbrev main_call10_v1 : Ref sig .tc := ⟨.hbm, 325, rfl⟩
abbrev main_call10_c_0 : Ref sig .tc := ⟨.hbm, 326, rfl⟩
abbrev main_call10_v2 : Ref sig .tc := ⟨.hbm, 327, rfl⟩
abbrev main_call10_v3 : Ref sig .tc := ⟨.hbm, 328, rfl⟩
abbrev main_call10_v4 : Ref sig .tc := ⟨.hbm, 329, rfl⟩
abbrev main_call10_v5 : Ref sig .tc := ⟨.hbm, 330, rfl⟩
abbrev main_call10_c_1 : Ref sig .tc := ⟨.hbm, 331, rfl⟩
abbrev main_call10_c_2 : Ref sig .tc := ⟨.hbm, 332, rfl⟩
abbrev main_call10_v6 : Ref sig .tc := ⟨.hbm, 333, rfl⟩
abbrev main_call10_v7 : Ref sig .tc := ⟨.hbm, 334, rfl⟩
abbrev main_call10_v8 : Ref sig .tc := ⟨.hbm, 335, rfl⟩
abbrev main_call10_v9 : Ref sig .tc := ⟨.hbm, 336, rfl⟩
abbrev main_call10_v10 : Ref sig .tc := ⟨.hbm, 337, rfl⟩
abbrev main_call10_v11 : Ref sig .tc := ⟨.hbm, 338, rfl⟩
abbrev main_call10_c_3 : Ref sig .tc := ⟨.hbm, 339, rfl⟩
abbrev main_call10_v12 : Ref sig .tc := ⟨.hbm, 340, rfl⟩
abbrev main_call10_v13 : Ref sig .tc := ⟨.hbm, 341, rfl⟩
abbrev main_call10_v14 : Ref sig .tc := ⟨.hbm, 342, rfl⟩
abbrev main_call10_cst : Ref sig .tc := ⟨.hbm, 343, rfl⟩
abbrev main_call10_v15 : Ref sig .tc := ⟨.hbm, 344, rfl⟩
abbrev main_v128 : Ref sig .tc := ⟨.hbm, 345, rfl⟩
abbrev main_v129 : Ref sig .tc := ⟨.hbm, 346, rfl⟩
abbrev main_v130 : Ref sig .tc := ⟨.hbm, 347, rfl⟩
abbrev main_cst_24 : Ref sig .tc := ⟨.hbm, 348, rfl⟩
abbrev main_v131 : Ref sig .tc := ⟨.hbm, 349, rfl⟩
abbrev main_v132 : Ref sig .tc := ⟨.hbm, 350, rfl⟩
abbrev main_v133 : Ref sig .tc := ⟨.hbm, 351, rfl⟩
abbrev main_v134 : Ref sig .tc := ⟨.hbm, 352, rfl⟩
abbrev main_v135 : Ref sig .tc := ⟨.hbm, 353, rfl⟩
abbrev main_call11_c : Ref sig .tc := ⟨.hbm, 354, rfl⟩
abbrev main_call11_v0 : Ref sig .tc := ⟨.hbm, 355, rfl⟩
abbrev main_call11_v1 : Ref sig .tc := ⟨.hbm, 356, rfl⟩
abbrev main_call11_c_0 : Ref sig .tc := ⟨.hbm, 357, rfl⟩
abbrev main_call11_v2 : Ref sig .tc := ⟨.hbm, 358, rfl⟩
abbrev main_call11_v3 : Ref sig .tc := ⟨.hbm, 359, rfl⟩
abbrev main_call11_v4 : Ref sig .tc := ⟨.hbm, 360, rfl⟩
abbrev main_call11_v5 : Ref sig .tc := ⟨.hbm, 361, rfl⟩
abbrev main_call11_c_1 : Ref sig .tc := ⟨.hbm, 362, rfl⟩
abbrev main_call11_c_2 : Ref sig .tc := ⟨.hbm, 363, rfl⟩
abbrev main_call11_v6 : Ref sig .tc := ⟨.hbm, 364, rfl⟩
abbrev main_call11_v7 : Ref sig .tc := ⟨.hbm, 365, rfl⟩
abbrev main_call11_v8 : Ref sig .tc := ⟨.hbm, 366, rfl⟩
abbrev main_call11_v9 : Ref sig .tc := ⟨.hbm, 367, rfl⟩
abbrev main_call11_v10 : Ref sig .tc := ⟨.hbm, 368, rfl⟩
abbrev main_call11_v11 : Ref sig .tc := ⟨.hbm, 369, rfl⟩
abbrev main_call11_c_3 : Ref sig .tc := ⟨.hbm, 370, rfl⟩
abbrev main_call11_v12 : Ref sig .tc := ⟨.hbm, 371, rfl⟩
abbrev main_call11_v13 : Ref sig .tc := ⟨.hbm, 372, rfl⟩
abbrev main_call11_v14 : Ref sig .tc := ⟨.hbm, 373, rfl⟩
abbrev main_call11_cst : Ref sig .tc := ⟨.hbm, 374, rfl⟩
abbrev main_call11_v15 : Ref sig .tc := ⟨.hbm, 375, rfl⟩
abbrev main_v136 : Ref sig .tc := ⟨.hbm, 376, rfl⟩
abbrev main_v137 : Ref sig .tc := ⟨.hbm, 377, rfl⟩
abbrev main_v138 : Ref sig .tc := ⟨.hbm, 378, rfl⟩
abbrev main_cst_25 : Ref sig .tc := ⟨.hbm, 379, rfl⟩
abbrev main_v139 : Ref sig .tc := ⟨.hbm, 380, rfl⟩
abbrev main_v140 : Ref sig .tc := ⟨.hbm, 381, rfl⟩
abbrev main_v141 : Ref sig .tc := ⟨.hbm, 382, rfl⟩
abbrev main_v142 : Ref sig .tc := ⟨.hbm, 383, rfl⟩
abbrev main_v143 : Ref sig .tc := ⟨.hbm, 384, rfl⟩
abbrev main_v144 : Ref sig .tc := ⟨.hbm, 385, rfl⟩
abbrev main_v145 : Ref sig .tc := ⟨.hbm, 386, rfl⟩
abbrev main_v146 : Ref sig .tc := ⟨.hbm, 387, rfl⟩
abbrev main_v147 : Ref sig .tc := ⟨.hbm, 388, rfl⟩
abbrev main_v148_0 : Ref sig .tc := ⟨.hbm, 389, rfl⟩
abbrev main_v148_1 : Ref sig .tc := ⟨.hbm, 390, rfl⟩
abbrev main_cst_26 : Ref sig .tc := ⟨.hbm, 391, rfl⟩
abbrev main_v149 : Ref sig .tc := ⟨.hbm, 392, rfl⟩
abbrev main_cst_27 : Ref sig .tc := ⟨.hbm, 393, rfl⟩
abbrev main_v150 : Ref sig .tc := ⟨.hbm, 394, rfl⟩
abbrev main_v151 : Ref sig .tc := ⟨.hbm, 395, rfl⟩
abbrev main_v152 : Ref sig .tc := ⟨.hbm, 396, rfl⟩
abbrev main_cst_28 : Ref sig .tc := ⟨.hbm, 397, rfl⟩
abbrev main_v153 : Ref sig .tc := ⟨.hbm, 398, rfl⟩
abbrev main_cst_29 : Ref sig .tc := ⟨.hbm, 399, rfl⟩
abbrev main_v154 : Ref sig .tc := ⟨.hbm, 400, rfl⟩
abbrev main_v155 : Ref sig .tc := ⟨.hbm, 401, rfl⟩
abbrev main_v156 : Ref sig .tc := ⟨.hbm, 402, rfl⟩
abbrev main_v157 : Ref sig .tc := ⟨.hbm, 403, rfl⟩
abbrev main_v158 : Ref sig .tc := ⟨.hbm, 404, rfl⟩
abbrev main_v159 : Ref sig .tc := ⟨.hbm, 405, rfl⟩
abbrev main_v160 : Ref sig .tc := ⟨.hbm, 406, rfl⟩
abbrev main_v161 : Ref sig .tc := ⟨.hbm, 407, rfl⟩
abbrev main_v162 : Ref sig .tc := ⟨.hbm, 408, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg2_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg10_1 : Ref sig .tc := ⟨.vmem, 52, rfl⟩
abbrev cc3_stg11_0 : Ref sig .tc := ⟨.vmem, 53, rfl⟩
abbrev cc3_stg11_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg2_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg3_1 : Ref sig .tc := ⟨.vmem, 75, rfl⟩
abbrev cc6_stg4_0 : Ref sig .tc := ⟨.vmem, 76, rfl⟩
abbrev cc6_stg4_1 : Ref sig .tc := ⟨.vmem, 77, rfl⟩
abbrev cc6_stg5_0 : Ref sig .tc := ⟨.vmem, 78, rfl⟩
abbrev cc6_stg5_1 : Ref sig .tc := ⟨.vmem, 79, rfl⟩
abbrev cc6_stg6_0 : Ref sig .tc := ⟨.vmem, 80, rfl⟩
abbrev cc6_stg6_1 : Ref sig .tc := ⟨.vmem, 81, rfl⟩
abbrev cc6_stg7_0 : Ref sig .tc := ⟨.vmem, 82, rfl⟩
abbrev cc6_stg8_0 : Ref sig .tc := ⟨.vmem, 83, rfl⟩
abbrev cc6_stg9_0 : Ref sig .tc := ⟨.vmem, 84, rfl⟩
abbrev cc6_stg10_0 : Ref sig .tc := ⟨.vmem, 85, rfl⟩
abbrev cc6_stg10_1 : Ref sig .tc := ⟨.vmem, 86, rfl⟩
abbrev cc6_stg11_0 : Ref sig .tc := ⟨.vmem, 87, rfl⟩
abbrev cc6_stg11_1 : Ref sig .tc := ⟨.vmem, 88, rfl⟩
abbrev cc7_stg0_0 : Ref sig .tc := ⟨.vmem, 89, rfl⟩
abbrev cc7_stg0_1 : Ref sig .tc := ⟨.vmem, 90, rfl⟩
abbrev cc7_stg1_0 : Ref sig .tc := ⟨.vmem, 91, rfl⟩
abbrev cc7_stg2_0 : Ref sig .tc := ⟨.vmem, 92, rfl⟩
abbrev cc7_stg2_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg5_1 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem2_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem10_1 : DmaSem sig := 52
abbrev cc3_sem11_0 : DmaSem sig := 53
abbrev cc3_sem11_1 : DmaSem sig := 54
abbrev cc4_sem0_0 : DmaSem sig := 55
abbrev cc4_sem0_1 : DmaSem sig := 56
abbrev cc4_sem1_0 : DmaSem sig := 57
abbrev cc4_sem2_0 : DmaSem sig := 58
abbrev cc4_sem2_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem3_1 : DmaSem sig := 75
abbrev cc6_sem4_0 : DmaSem sig := 76
abbrev cc6_sem4_1 : DmaSem sig := 77
abbrev cc6_sem5_0 : DmaSem sig := 78
abbrev cc6_sem5_1 : DmaSem sig := 79
abbrev cc6_sem6_0 : DmaSem sig := 80
abbrev cc6_sem6_1 : DmaSem sig := 81
abbrev cc6_sem7_0 : DmaSem sig := 82
abbrev cc6_sem8_0 : DmaSem sig := 83
abbrev cc6_sem9_0 : DmaSem sig := 84
abbrev cc6_sem10_0 : DmaSem sig := 85
abbrev cc6_sem10_1 : DmaSem sig := 86
abbrev cc6_sem11_0 : DmaSem sig := 87
abbrev cc6_sem11_1 : DmaSem sig := 88
abbrev cc7_sem0_0 : DmaSem sig := 89
abbrev cc7_sem0_1 : DmaSem sig := 90
abbrev cc7_sem1_0 : DmaSem sig := 91
abbrev cc7_sem2_0 : DmaSem sig := 92
abbrev cc7_sem2_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem3_0 : DmaSem sig := 98
abbrev cc8_sem4_0 : DmaSem sig := 99
abbrev cc8_sem5_0 : DmaSem sig := 100
abbrev cc8_sem5_1 : DmaSem sig := 101

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S3x128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S3x128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S3x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x1x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S3x128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S3x128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S3x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S5000x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S1x1x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  bcast_S_S600000 : S_.BroadcastsInDim S600000 (![] : Fin 0 → Fin S600000.rank)
  slices_S3x600000_S1x600000_0_0 : S3x600000.Slices ![0, 0] S1x600000
  shapeCasts_S1x600000_S600000 : S1x600000.ShapeCasts S600000
  bcast_S_S100000 : S_.BroadcastsInDim S100000 (![] : Fin 0 → Fin S100000.rank)
  bcast_S600000_S600000x1_0 : S600000.BroadcastsInDim S600000x1 (![0] : Fin 1 → Fin S600000x1.rank)
  slices_S3x600000_S1x600000_1_0 : S3x600000.Slices ![1, 0] S1x600000
  slices_S3x600000_S1x600000_2_0 : S3x600000.Slices ![2, 0] S1x600000
  bcast_S100000_S100000x1_0 : S100000.BroadcastsInDim S100000x1 (![0] : Fin 1 → Fin S100000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  slices_S3x3x128x128_S1x3x128x128_0_0_0_0 : S3x3x128x128.Slices ![0, 0, 0, 0] S1x3x128x128
  shapeCasts_S1x3x128x128_S3x128x128 : S1x3x128x128.ShapeCasts S3x128x128
  slices_S3x3x128_S1x3x128_0_0_0 : S3x3x128.Slices ![0, 0, 0] S1x3x128
  shapeCasts_S1x3x128_S3x128 : S1x3x128.ShapeCasts S3x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  shapeCasts_S1x128_S1x128 : S1x128.ShapeCasts S1x128
  broadcasts_S1x128_S10000x128 : S1x128.Broadcasts S10000x128
  reduces_S10000x128_S128 : S10000x128.Reduces [0] S128
  reducesTo_S10x1x128_S1x128_d0 : S10x1x128.ReducesTo [0] S1x128
  slices_S3x128_S1x128_0_0 : S3x128.Slices ![0, 0] S1x128
  bcast_S128_S1x128_1 : S128.BroadcastsInDim S1x128 (![1] : Fin 1 → Fin S1x128.rank)
  slices_S3x3x128x128_S1x3x128x128_1_0_0_0 : S3x3x128x128.Slices ![1, 0, 0, 0] S1x3x128x128
  slices_S3x3x128_S1x3x128_1_0_0 : S3x3x128.Slices ![1, 0, 0] S1x3x128
  slices_S3x128_S1x128_1_0 : S3x128.Slices ![1, 0] S1x128
  slices_S3x3x128x128_S1x3x128x128_2_0_0_0 : S3x3x128x128.Slices ![2, 0, 0, 0] S1x3x128x128
  slices_S3x3x128_S1x3x128_2_0_0 : S3x3x128.Slices ![2, 0, 0] S1x3x128
  slices_S3x128_S1x128_2_0 : S3x128.Slices ![2, 0] S1x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S100000x1.size a
  hwx0_6 : ∀ i : grid0.Coords, EltTy.bits .f32 = 32 ∨ (Rect.block (s := S100000x1) S5000x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128x128.size a ≤ S3x128x128.size a
  hwx0_7 : ∀ i : grid0.Coords, EltTy.bits .f32 = 32 ∨ (Rect.block (s := S3x128x128) S3x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x128x128.size a ≤ S3x128x128.size a
  hwx0_8 : ∀ i : grid0.Coords, EltTy.bits .f32 = 32 ∨ (Rect.block (s := S3x128x128) S3x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S20x1x128.size a
  hwx0_11 : ∀ i : grid0.Coords, EltTy.bits .f32 = 32 ∨ (Rect.block (s := S20x1x128) S1x1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S10x1x128.size a
  hwx1_2 : ∀ i : grid1.Coords, EltTy.bits .f32 = 32 ∨ (Rect.block (s := S10x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S3x128x128.size a ≤ S3x128x128.size a
  hwx3_7 : ∀ i : grid3.Coords, EltTy.bits .f32 = 32 ∨ (Rect.block (s := S3x128x128) S3x128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S3x128x128.size a ≤ S3x128x128.size a
  hwx3_8 : ∀ i : grid3.Coords, EltTy.bits .f32 = 32 ∨ (Rect.block (s := S3x128x128) S3x128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S3x128.size a ≤ S3x128.size a
  hwx3_9 : ∀ i : grid3.Coords, EltTy.bits .f32 = 32 ∨ (Rect.block (s := S3x128) S3x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S100000x128.size a
  hwx3_10 : ∀ i : grid3.Coords, EltTy.bits .f32 = 32 ∨ (Rect.block (s := S100000x128) S5000x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1x1x128.size a ≤ S20x1x128.size a
  hwx3_11 : ∀ i : grid3.Coords, EltTy.bits .f32 = 32 ∨ (Rect.block (s := S20x1x128) S1x1x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x128.size a ≤ S10x1x128.size a
  hwx4_2 : ∀ i : grid4.Coords, EltTy.bits .f32 = 32 ∨ (Rect.block (s := S10x1x128) S1x1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x1.size a ≤ S100000x1.size a
  hwx6_4 : ∀ i : grid6.Coords, EltTy.bits .f32 = 32 ∨ (Rect.block (s := S100000x1) S5000x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x1.size a ≤ S100000x1.size a
  hwx6_6 : ∀ i : grid6.Coords, EltTy.bits .f32 = 32 ∨ (Rect.block (s := S100000x1) S5000x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S3x128x128.size a ≤ S3x128x128.size a
  hwx6_7 : ∀ i : grid6.Coords, EltTy.bits .f32 = 32 ∨ (Rect.block (s := S3x128x128) S3x128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S3x128x128.size a ≤ S3x128x128.size a
  hwx6_8 : ∀ i : grid6.Coords, EltTy.bits .f32 = 32 ∨ (Rect.block (s := S3x128x128) S3x128x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S3x128.size a ≤ S3x128.size a
  hwx6_9 : ∀ i : grid6.Coords, EltTy.bits .f32 = 32 ∨ (Rect.block (s := S3x128) S3x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S5000x128.size a ≤ S100000x128.size a
  hwx6_10 : ∀ i : grid6.Coords, EltTy.bits .f32 = 32 ∨ (Rect.block (s := S100000x128) S5000x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S1x1x128.size a ≤ S20x1x128.size a
  hwx6_11 : ∀ i : grid6.Coords, EltTy.bits .f32 = 32 ∨ (Rect.block (s := S20x1x128) S1x1x128.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x128.size a ≤ S10x1x128.size a
  hwx7_2 : ∀ i : grid7.Coords, EltTy.bits .f32 = 32 ∨ (Rect.block (s := S10x1x128) S1x1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v53) S3x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S3x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58_0) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v58_1) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v58_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v96) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v24) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v27) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v98) S3x128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v100) S3x128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v102) S3x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v103_0) S5000x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v103_1) S1x1x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v103_0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x1x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v116) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v117) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v117) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v141) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v21) S5000x1.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v24) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v27) S5000x1.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v143) S3x128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v145) S3x128x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v147) S3x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v148_0) S5000x128.size cc6_transform_10 reads6_10 true false 2 stage6_10 sem6_10
    hrank6 hreads6_10 hinb6_10 nbuf6_10 (Memref.isWhole_whole _) hwx6_10 hstage6_10

abbrev win6_11 : Pipeline.Window sig grid6 :=
  Pipeline.Window.ofSpec (Memref.whole main_v148_1) S1x1x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v148_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S1x1x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v148_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v155) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v158) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v161) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v162) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x128 : Shape := ⟨2, ![100000, 128]⟩
abbrev S3x600000 : Shape := ⟨2, ![3, 600000]⟩
abbrev S3x3x128x128 : Shape := ⟨4, ![3, 3, 128, 128]⟩
abbrev S3x3x128 : Shape := ⟨3, ![3, 3, 128]⟩
abbrev S3x128 : Shape := ⟨2, ![3, 128]⟩
abbrev S_ : Shape := ⟨0, ![]⟩
abbrev S600000 : Shape := ⟨1, ![600000]⟩
abbrev S1x600000 : Shape := ⟨2, ![1, 600000]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 467
  | .vmem => 0
  | .smem => 0
  | _ => 0

abbrev hbmTy0_0 (i : Nat) : BufTy := match i % 128 with
  | 0 => ⟨S100000x128, .f32⟩
  | 1 => ⟨S3x600000, .i32⟩
  | 2 => ⟨S3x600000, .i32⟩
  | 3 => ⟨S3x3x128x128, .f32⟩
  | 4 => ⟨S3x3x128x128, .f32⟩
  | 5 => ⟨S3x3x128, .f32⟩
  | 6 => ⟨S3x128, .f32⟩
  | 7 => ⟨S3x128, .f32⟩
  | 8 => ⟨S_, .f32⟩
  | 9 => ⟨S600000, .f32⟩
  | 10 => ⟨S1x600000, .i32⟩
  | 11 => ⟨S600000, .i32⟩
  | 12 => ⟨S_, .f32⟩
  | 13 => ⟨S100000, .f32⟩
  | 14 => ⟨S600000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S600000, .f32⟩
  | 22 => ⟨S1x600000, .i32⟩
  | 23 => ⟨S600000, .i32⟩
  | 24 => ⟨S_, .f32⟩
  | 25 => ⟨S100000, .f32⟩
  | 26 => ⟨S600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S600000, .f32⟩
  | 34 => ⟨S1x600000, .i32⟩
  | 35 => ⟨S600000, .i32⟩
  | 36 => ⟨S_, .f32⟩
  | 37 => ⟨S100000, .f32⟩
  | 38 => ⟨S600000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000x128, .f32⟩
  | 46 => ⟨S1x600000, .i32⟩
  | 47 => ⟨S600000, .i32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S1x600000, .i32⟩
  | 58 => ⟨S600000, .i32⟩
  | 59 => ⟨S_, .f32⟩
  | 60 => ⟨S100000x128, .f32⟩
  | 61 => ⟨S600000x1, .i32⟩
  | 62 => ⟨S100000x128, .f32⟩
  | 63 => ⟨S100000x1, .f32⟩
  | 64 => ⟨S100000x128, .f32⟩
  | 65 => ⟨S100000x128, .f32⟩
  | 66 => ⟨S1x1x128x128, .f32⟩
  | 67 => ⟨S128x128, .f32⟩
  | 68 => ⟨S100000x128, .f32⟩
  | 69 => ⟨S1x1x128x128, .f32⟩
  | 70 => ⟨S128x128, .f32⟩
  | 71 => ⟨S100000x128, .f32⟩
  | 72 => ⟨S100000x128, .f32⟩
  | 73 => ⟨S1x1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S1x600000, .i32⟩
  | 83 => ⟨S600000, .i32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S1x600000, .i32⟩
  | 94 => ⟨S600000, .i32⟩
  | 95 => ⟨S_, .f32⟩
  | 96 => ⟨S100000x128, .f32⟩
  | 97 => ⟨S600000x1, .i32⟩
  | 98 => ⟨S100000x128, .f32⟩
  | 99 => ⟨S100000x1, .f32⟩
  | 100 => ⟨S100000x128, .f32⟩
  | 101 => ⟨S100000x128, .f32⟩
  | 102 => ⟨S1x1x128x128, .f32⟩
  | 103 => ⟨S128x128, .f32⟩
  | 104 => ⟨S100000x128, .f32⟩
  | 105 => ⟨S1x1x128x128, .f32⟩
  | 106 => ⟨S128x128, .f32⟩
  | 107 => ⟨S100000x128, .f32⟩
  | 108 => ⟨S100000x128, .f32⟩
  | 109 => ⟨S1x1x128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x600000, .i32⟩
  | 119 => ⟨S600000, .i32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000x128, .f32⟩

abbrev hbmTy0_1 (i : Nat) : BufTy := match i % 128 with
  | 0 => ⟨S600000x128, .f32⟩
  | 1 => ⟨S1x600000, .i32⟩
  | 2 => ⟨S600000, .i32⟩
  | 3 => ⟨S_, .f32⟩
  | 4 => ⟨S100000x128, .f32⟩
  | 5 => ⟨S600000x1, .i32⟩
  | 6 => ⟨S100000x128, .f32⟩
  | 7 => ⟨S100000x1, .f32⟩
  | 8 => ⟨S100000x128, .f32⟩
  | 9 => ⟨S100000x128, .f32⟩
  | 10 => ⟨S1x1x128x128, .f32⟩
  | 11 => ⟨S128x128, .f32⟩
  | 12 => ⟨S100000x128, .f32⟩
  | 13 => ⟨S1x1x128x128, .f32⟩
  | 14 => ⟨S128x128, .f32⟩
  | 15 => ⟨S100000x128, .f32⟩
  | 16 => ⟨S100000x128, .f32⟩
  | 17 => ⟨S1x1x128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S128, .f32⟩
  | 37 => ⟨S_, .f32⟩
  | 38 => ⟨S128, .f32⟩
  | 39 => ⟨S128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S1x600000, .i32⟩
  | 63 => ⟨S600000, .i32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S1x600000, .i32⟩
  | 74 => ⟨S600000, .i32⟩
  | 75 => ⟨S_, .f32⟩
  | 76 => ⟨S100000x128, .f32⟩
  | 77 => ⟨S600000x1, .i32⟩
  | 78 => ⟨S100000x128, .f32⟩
  | 79 => ⟨S100000x1, .f32⟩
  | 80 => ⟨S100000x128, .f32⟩
  | 81 => ⟨S100000x128, .f32⟩
  | 82 => ⟨S1x1x128x128, .f32⟩
  | 83 => ⟨S128x128, .f32⟩
  | 84 => ⟨S100000x128, .f32⟩
  | 85 => ⟨S1x1x128x128, .f32⟩
  | 86 => ⟨S128x128, .f32⟩
  | 87 => ⟨S100000x128, .f32⟩
  | 88 => ⟨S100000x128, .f32⟩
  | 89 => ⟨S1x1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1x600000, .i32⟩
  | 99 => ⟨S600000, .i32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S1x600000, .i32⟩
  | 110 => ⟨S600000, .i32⟩
  | 111 => ⟨S_, .f32⟩
  | 112 => ⟨S100000x128, .f32⟩
  | 113 => ⟨S600000x1, .i32⟩
  | 114 => ⟨S100000x128, .f32⟩
  | 115 => ⟨S100000x1, .f32⟩
  | 116 => ⟨S100000x128, .f32⟩
  | 117 => ⟨S100000x128, .f32⟩
  | 118 => ⟨S1x1x128x128, .f32⟩
  | 119 => ⟨S128x128, .f32⟩
  | 120 => ⟨S100000x128, .f32⟩
  | 121 => ⟨S1x1x128x128, .f32⟩
  | 122 => ⟨S128x128, .f32⟩
  | 123 => ⟨S100000x128, .f32⟩
  | 124 => ⟨S100000x128, .f32⟩
  | 125 => ⟨S1x1x128, .f32⟩
  | 126 => ⟨S128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S1x600000, .i32⟩
  | 7 => ⟨S600000, .i32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S1x600000, .i32⟩
  | 18 => ⟨S600000, .i32⟩
  | 19 => ⟨S_, .f32⟩
  | 20 => ⟨S100000x128, .f32⟩
  | 21 => ⟨S600000x1, .i32⟩
  | 22 => ⟨S100000x128, .f32⟩
  | 23 => ⟨S100000x1, .f32⟩
  | 24 => ⟨S100000x128, .f32⟩
  | 25 => ⟨S100000x128, .f32⟩
  | 26 => ⟨S1x1x128x128, .f32⟩
  | 27 => ⟨S128x128, .f32⟩
  | 28 => ⟨S100000x128, .f32⟩
  | 29 => ⟨S1x1x128x128, .f32⟩
  | 30 => ⟨S128x128, .f32⟩
  | 31 => ⟨S100000x128, .f32⟩
  | 32 => ⟨S100000x128, .f32⟩
  | 33 => ⟨S1x1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S1x600000, .i32⟩
  | 79 => ⟨S600000, .i32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S1x600000, .i32⟩
  | 90 => ⟨S600000, .i32⟩
  | 91 => ⟨S_, .f32⟩
  | 92 => ⟨S100000x128, .f32⟩
  | 93 => ⟨S600000x1, .i32⟩
  | 94 => ⟨S100000x128, .f32⟩
  | 95 => ⟨S100000x1, .f32⟩
  | 96 => ⟨S100000x128, .f32⟩
  | 97 => ⟨S100000x128, .f32⟩
  | 98 => ⟨S1x1x128x128, .f32⟩
  | 99 => ⟨S128x128, .f32⟩
  | 100 => ⟨S100000x128, .f32⟩
  | 101 => ⟨S1x1x128x128, .f32⟩
  | 102 => ⟨S128x128, .f32⟩
  | 103 => ⟨S100000x128, .f32⟩
  | 104 => ⟨S100000x128, .f32⟩
  | 105 => ⟨S1x1x128, .f32⟩
  | 106 => ⟨S128, .f32⟩
  | 107 => ⟨S1x128, .f32⟩
  | 108 => ⟨S100000x128, .f32⟩
  | 109 => ⟨S100000x128, .f32⟩
  | 110 => ⟨S100000x128, .f32⟩
  | 111 => ⟨S1x600000, .i32⟩
  | 112 => ⟨S600000, .i32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S1x600000, .i32⟩
  | 123 => ⟨S600000, .i32⟩
  | 124 => ⟨S_, .f32⟩
  | 125 => ⟨S100000x128, .f32⟩
  | 126 => ⟨S600000x1, .i32⟩
  | 127 => ⟨S100000x128, .f32⟩
  | _ => ⟨S100000x128, .f32⟩

abbrev hbmTy0_3 (i : Nat) : BufTy := match i % 128 with
  | 0 => ⟨S100000x1, .f32⟩
  | 1 => ⟨S100000x128, .f32⟩
  | 2 => ⟨S100000x128, .f32⟩
  | 3 => ⟨S1x1x128x128, .f32⟩
  | 4 => ⟨S128x128, .f32⟩
  | 5 => ⟨S100000x128, .f32⟩
  | 6 => ⟨S1x1x128x128, .f32⟩
  | 7 => ⟨S128x128, .f32⟩
  | 8 => ⟨S100000x128, .f32⟩
  | 9 => ⟨S100000x128, .f32⟩
  | 10 => ⟨S1x1x128, .f32⟩
  | 11 => ⟨S128, .f32⟩
  | 12 => ⟨S1x128, .f32⟩
  | 13 => ⟨S100000x128, .f32⟩
  | 14 => ⟨S100000x128, .f32⟩
  | 15 => ⟨S100000x128, .f32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S1x600000, .i32⟩
  | 28 => ⟨S600000, .i32⟩
  | 29 => ⟨S_, .f32⟩
  | 30 => ⟨S100000x128, .f32⟩
  | 31 => ⟨S600000x1, .i32⟩
  | 32 => ⟨S100000x128, .f32⟩
  | 33 => ⟨S100000x1, .f32⟩
  | 34 => ⟨S100000x128, .f32⟩
  | 35 => ⟨S100000x128, .f32⟩
  | 36 => ⟨S1x1x128x128, .f32⟩
  | 37 => ⟨S128x128, .f32⟩
  | 38 => ⟨S100000x128, .f32⟩
  | 39 => ⟨S1x1x128x128, .f32⟩
  | 40 => ⟨S128x128, .f32⟩
  | 41 => ⟨S100000x128, .f32⟩
  | 42 => ⟨S100000x128, .f32⟩
  | 43 => ⟨S1x1x128, .f32⟩
  | 44 => ⟨S128, .f32⟩
  | 45 => ⟨S1x128, .f32⟩
  | 46 => ⟨S100000x128, .f32⟩
  | 47 => ⟨S100000x128, .f32⟩
  | 48 => ⟨S100000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_cst_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_9 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call3_cst : Ref sig .tc := ⟨.hbm, 78, rfl⟩
abbrev main_call3_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call4_cst : Ref sig .tc := ⟨.hbm, 114, rfl⟩
abbrev main_call4_v0 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_14 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call5_cst : Ref sig .tc := ⟨.hbm, 150, rfl⟩
abbrev main_call5_v0 : Ref sig .tc := ⟨.hbm, 151, rfl⟩
abbrev main_v113 : Ref sig .tc := ⟨.hbm, 152, rfl⟩
abbrev main_v114 : Ref sig .tc := ⟨.hbm, 153, rfl⟩
abbrev main_cst_17 : Ref sig .tc := ⟨.hbm, 154, rfl⟩
abbrev main_v115 : Ref sig .tc := ⟨.hbm, 155, rfl⟩
abbrev main_cst_18 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_19 : Ref sig .tc := ⟨.hbm, 163, rfl⟩
abbrev main_v122 : Ref sig .tc := ⟨.hbm, 164, rfl⟩
abbrev main_cst_20 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_21 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_22 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_c_23 : Ref sig .tc := ⟨.hbm, 192, rfl⟩
abbrev main_v147 : Ref sig .tc := ⟨.hbm, 193, rfl⟩
abbrev main_v148 : Ref sig .tc := ⟨.hbm, 194, rfl⟩
abbrev main_c_24 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_25 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_call6_cst : Ref sig .tc := ⟨.hbm, 222, rfl⟩
abbrev main_call6_v0 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_c_26 : Ref sig .tc := ⟨.hbm, 228, rfl⟩
abbrev main_v178 : Ref sig .tc := ⟨.hbm, 229, rfl⟩
abbrev main_v179 : Ref sig .tc := ⟨.hbm, 230, rfl⟩
abbrev main_c_27 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_28 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_call7_cst : Ref sig .tc := ⟨.hbm, 258, rfl⟩
abbrev main_call7_v0 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_c_29 : Ref sig .tc := ⟨.hbm, 264, rfl⟩
abbrev main_v209 : Ref sig .tc := ⟨.hbm, 265, rfl⟩
abbrev main_v210 : Ref sig .tc := ⟨.hbm, 266, rfl⟩
abbrev main_c_30 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_31 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_call8_cst : Ref sig .tc := ⟨.hbm, 294, rfl⟩
abbrev main_call8_v0 : Ref sig .tc := ⟨.hbm, 295, rfl⟩
abbrev main_v236 : Ref sig .tc := ⟨.hbm, 296, rfl⟩
abbrev main_v237 : Ref sig .tc := ⟨.hbm, 297, rfl⟩
abbrev main_cst_32 : Ref sig .tc := ⟨.hbm, 298, rfl⟩
abbrev main_v238 : Ref sig .tc := ⟨.hbm, 299, rfl⟩
abbrev main_cst_33 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_cst_34 : Ref sig .tc := ⟨.hbm, 307, rfl⟩
abbrev main_v245 : Ref sig .tc := ⟨.hbm, 308, rfl⟩
abbrev main_cst_35 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_cst_36 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_cst_37 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_c_38 : Ref sig .tc := ⟨.hbm, 336, rfl⟩
abbrev main_v270 : Ref sig .tc := ⟨.hbm, 337, rfl⟩
abbrev main_v271 : Ref sig .tc := ⟨.hbm, 338, rfl⟩
abbrev main_c_39 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_cst_40 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_c_41 : Ref sig .tc := ⟨.hbm, 369, rfl⟩
abbrev main_v300 : Ref sig .tc := ⟨.hbm, 370, rfl⟩
abbrev main_v301 : Ref sig .tc := ⟨.hbm, 371, rfl⟩
abbrev main_c_42 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_cst_43 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_c_44 : Ref sig .tc := ⟨.hbm, 402, rfl⟩
abbrev main_v330 : Ref sig .tc := ⟨.hbm, 403, rfl⟩
abbrev main_v331 : Ref sig .tc := ⟨.hbm, 404, rfl⟩
abbrev main_c_45 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_cst_46 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_v357 : Ref sig .tc := ⟨.hbm, 432, rfl⟩
abbrev main_cst_47 : Ref sig .tc := ⟨.hbm, 433, rfl⟩
abbrev main_v358 : Ref sig .tc := ⟨.hbm, 434, rfl⟩
abbrev main_cst_48 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_cst_49 : Ref sig .tc := ⟨.hbm, 442, rfl⟩
abbrev main_v365 : Ref sig .tc := ⟨.hbm, 443, rfl⟩
abbrev main_cst_50 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_cst_51 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_v383 : Ref sig .tc := ⟨.hbm, 463, rfl⟩
abbrev main_v384 : Ref sig .tc := ⟨.hbm, 464, rfl⟩
abbrev main_v385 : Ref sig .tc := ⟨.hbm, 465, rfl⟩
abbrev main_v386 : Ref sig .tc := ⟨.hbm, 466, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  slices_S3x600000_S1x600000_0_0 : S3x600000.Slices ![0, 0] S1x600000
  shapeCasts_S1x600000_S600000 : S1x600000.ShapeCasts S600000
  bcast_S_S100000 : S_.BroadcastsInDim S100000 (![] : Fin 0 → Fin S100000.rank)
  bcast_S600000_S600000x1_0 : S600000.BroadcastsInDim S600000x1 (![0] : Fin 1 → Fin S600000x1.rank)
  slices_S3x600000_S1x600000_1_0 : S3x600000.Slices ![1, 0] S1x600000
  slices_S3x600000_S1x600000_2_0 : S3x600000.Slices ![2, 0] S1x600000
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x3x128x128_S1x1x128x128_0_0_0_0 : S3x3x128x128.Slices ![0, 0, 0, 0] S1x1x128x128
  shapeCasts_S1x1x128x128_S128x128 : S1x1x128x128.ShapeCasts S128x128
  slices_S3x3x128_S1x1x128_0_0_0 : S3x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x3x128x128_S1x1x128x128_0_1_0_0 : S3x3x128x128.Slices ![0, 1, 0, 0] S1x1x128x128
  slices_S3x3x128_S1x1x128_0_1_0 : S3x3x128.Slices ![0, 1, 0] S1x1x128
  slices_S3x3x128x128_S1x1x128x128_0_2_0_0 : S3x3x128x128.Slices ![0, 2, 0, 0] S1x1x128x128
  slices_S3x3x128_S1x1x128_0_2_0 : S3x3x128.Slices ![0, 2, 0] S1x1x128
  reducesTo_S100000x128_S128_d0 : S100000x128.ReducesTo [0] S128
  h_S_ : 0 < S_.numel
  bcast_S_S128 : S_.BroadcastsInDim S128 (![] : Fin 0 → Fin S128.rank)
  slices_S3x128_S1x128_0_0 : S3x128.Slices ![0, 0] S1x128
  shapeCasts_S1x128_S128 : S1x128.ShapeCasts S128
  slices_S3x3x128x128_S1x1x128x128_1_0_0_0 : S3x3x128x128.Slices ![1, 0, 0, 0] S1x1x128x128
  slices_S3x3x128_S1x1x128_1_0_0 : S3x3x128.Slices ![1, 0, 0] S1x1x128
  slices_S3x3x128x128_S1x1x128x128_1_1_0_0 : S3x3x128x128.Slices ![1, 1, 0, 0] S1x1x128x128
  slices_S3x3x128_S1x1x128_1_1_0 : S3x3x128.Slices ![1, 1, 0] S1x1x128
  slices_S3x3x128x128_S1x1x128x128_1_2_0_0 : S3x3x128x128.Slices ![1, 2, 0, 0] S1x1x128x128
  slices_S3x3x128_S1x1x128_1_2_0 : S3x3x128.Slices ![1, 2, 0] S1x1x128
  slices_S3x128_S1x128_1_0 : S3x128.Slices ![1, 0] S1x128
  slices_S3x3x128x128_S1x1x128x128_2_0_0_0 : S3x3x128x128.Slices ![2, 0, 0, 0] S1x1x128x128
  slices_S3x3x128_S1x1x128_2_0_0 : S3x3x128.Slices ![2, 0, 0] S1x1x128
  slices_S3x3x128x128_S1x1x128x128_2_1_0_0 : S3x3x128x128.Slices ![2, 1, 0, 0] S1x1x128x128
  slices_S3x3x128_S1x1x128_2_1_0 : S3x3x128.Slices ![2, 1, 0] S1x1x128
  slices_S3x3x128x128_S1x1x128x128_2_2_0_0 : S3x3x128x128.Slices ![2, 2, 0, 0] S1x1x128x128
  slices_S3x3x128_S1x1x128_2_2_0 : S3x3x128.Slices ![2, 2, 0] S1x1x128
  slices_S3x128_S1x128_2_0 : S3x128.Slices ![2, 0] S1x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One layer of the network as functions of arrays over the extended reals, in the two spellings the programs use.
-/
import Idealize.ShloMosaic.PureOps.Ideal
import Idealize.ShloMosaic.Lib.ValueIdx

noncomputable section

namespace Cert.Sage

open Idealize.ShloMosaic Idealize.ShloMosaic.ValueIdx

abbrev Nodes : Shape := ⟨2, ![100000, 128]⟩

abbrev Col : Shape := ⟨2, ![100000, 1]⟩

abbrev PerNode : Shape := ⟨1, ![100000]⟩

abbrev Wts : Shape := ⟨3, ![3, 128, 128]⟩

abbrev Bias : Shape := ⟨2, ![3, 128]⟩

abbrev Row : Shape := ⟨2, ![1, 128]⟩

abbrev Blocks (B : Nat) : Shape := ⟨3, ![B, 1, 128]⟩

abbrev nodesWord : EReal := Ideal.ofBits .f32 0x47C35000#32

abbrev epsWord : EReal := Ideal.ofBits .f32 0x3727C5AC#32

/-- Each row times its own factor, the factor kept as a column. -/
def scaleBy (x : Nodes.Idx → EReal) (s : Col.Idx → EReal) : Nodes.Idx → EReal := fun i => x i * s (ix2 (i 0) 0)

/-- Each row divided by its own divisor. -/
def divideBy (x : Nodes.Idx → EReal) (d : PerNode.Idx → EReal) : Nodes.Idx → EReal := fun i => Ideal.div (x i) (d (ix1 (i 0)))

/-- Edge type `k` at node `n`, feature `c`: own features through `Ws`, neighbour features through `Wn`, plus the bias. -/
def msg (relu : Bool) (h nb : Nodes.Idx → EReal) (Ws Wn : Wts.Idx → EReal) (b : Bias.Idx → EReal)
    (k : Fin 3) (n : Fin 100000) (c : Fin 128) : EReal :=
  let o := (∑ j : Fin 128, h (ix2 n j) * Ws (ix3 k j c) + ∑ j : Fin 128, nb (ix2 n j) * Wn (ix3 k j c)) + b (ix2 k c)
  if relu then max o 0 else o

/-- The three edge types' contributions, added left to right. -/
def accAt (relu : Bool) (h nb0 nb1 nb2 : Nodes.Idx → EReal) (Ws Wn : Wts.Idx → EReal) (b : Bias.Idx → EReal)
    (n : Fin 100000) (c : Fin 128) : EReal :=
  (msg relu h nb0 Ws Wn b 0 n c + msg relu h nb1 Ws Wn b 1 n c) + msg relu h nb2 Ws Wn b 2 n c

def acc (relu : Bool) (h nb0 nb1 nb2 : Nodes.Idx → EReal) (Ws Wn : Wts.Idx → EReal) (b : Bias.Idx → EReal) :
    Nodes.Idx → EReal := fun i => accAt relu h nb0 nb1 nb2 Ws Wn b (i 0) (i 1)

/-- A feature's mean over the nodes. -/
def mean (a : Nodes.Idx → EReal) (c : Fin 128) : EReal := Ideal.div (∑ n : Fin 100000, a (ix2 n c)) nodesWord

/-- A feature's second moment about `mu` over the nodes. -/
def var (a : Nodes.Idx → EReal) (mu : Fin 128 → EReal) (c : Fin 128) : EReal :=
  Ideal.div (∑ n : Fin 100000, (a (ix2 n c) - mu c) * (a (ix2 n c) - mu c)) nodesWord

/-- Row `r` of block `i` when `B` blocks of `R` rows make up the nodes. -/
def rowOf {B R : Nat} (hBR : B * R = 100000) (i : Fin B) (r : Fin R) : Fin 100000 :=
  ⟨R * i.val + r.val, by
    have h1 : R * i.val + r.val < R * (i.val + 1) := by rw [Nat.mul_succ]; exact Nat.add_lt_add_left r.isLt _
    exact lt_of_lt_of_le h1 (by rw [← hBR, Nat.mul_comm B R]; exact Nat.mul_le_mul_left R i.isLt)⟩

/-- Each block of rows summed, feature by feature. -/
def rowBlockSums {B R : Nat} (hBR : B * R = 100000) (a : Nodes.Idx → EReal) : (Blocks B).Idx → EReal :=
  fun i => ∑ r : Fin R, a (ix2 (rowOf hBR (i 0) r) (i 2))

/-- Each block of rows: squared distances from the row `mu`, summed feature by feature. -/
def rowBlockSquares {B R : Nat} (hBR : B * R = 100000) (a : Nodes.Idx → EReal) (mu : Row.Idx → EReal) :
    (Blocks B).Idx → EReal :=
  fun i => ∑ r : Fin R, (a (ix2 (rowOf hBR (i 0) r) (i 2)) - mu (ix2 0 (i 2))) * (a (ix2 (rowOf hBR (i 0) r) (i 2)) - mu (ix2 0 (i 2)))

/-- The blocks' sums added and divided by the number of nodes. -/
def meanOfBlocks {B : Nat} (p : (Blocks B).Idx → EReal) : Row.Idx → EReal :=
  fun i => Ideal.div (∑ t : Fin B, p (ix3 t 0 (i 1))) nodesWord

/-- gamma · (a − mu) / sqrt (var + eps) + beta at one node and feature. -/
def normAt (a : Nodes.Idx → EReal) (mu v gam bet : Fin 128 → EReal) (n : Fin 100000) (c : Fin 128) : EReal :=
  Ideal.div (gam c * (a (ix2 n c) - mu c)) (Ideal.sqrt (v c + epsWord)) + bet c

def norm (a : Nodes.Idx → EReal) (mu v gam bet : Fin 128 → EReal) : Nodes.Idx → EReal :=
  fun i => normAt a mu v gam bet (i 0) (i 1)

def ofRow (r : Row.Idx → EReal) : Fin 128 → EReal := fun c => r (ix2 0 c)

def normRows (a : Nodes.Idx → EReal) (mu v gam bet : Row.Idx → EReal) : Nodes.Idx → EReal :=
  norm a (ofRow mu) (ofRow v) (ofRow gam) (ofRow bet)

/-- A layer with its moments taken over all nodes at once. -/
def layer (relu : Bool) (h nb0 nb1 nb2 : Nodes.Idx → EReal) (Ws Wn : Wts.Idx → EReal) (b : Bias.Idx → EReal)
    (gam bet : Fin 128 → EReal) : Nodes.Idx → EReal :=
  let a := acc relu h nb0 nb1 nb2 Ws Wn b
  let mu := mean a
  norm a mu (var a mu) gam bet

/-- A layer with its mean taken in 20 blocks of rows and its second moment in 10. -/
def layerByBlocks (relu : Bool) (h nb0 nb1 nb2 : Nodes.Idx → EReal) (Ws Wn : Wts.Idx → EReal) (b : Bias.Idx → EReal)
    (gam bet : Row.Idx → EReal) : Nodes.Idx → EReal :=
  let a := acc relu h nb0 nb1 nb2 Ws Wn b
  let mu := meanOfBlocks (rowBlockSums (B := 20) (R := 5000) (by decide) a)
  let v := meanOfBlocks (rowBlockSquares (B := 10) (R := 10000) (by decide) a mu)
  normRows a mu v gam bet

end Cert.Sage

end
-- ==== Proof.HostTerms.lean ====
import proofs.«429645_j52570399703510_2_alg».proof.KernelIdeal
import proofs.«429645_j52570399703510_2_alg».proof.Proof.Gen.KernelIdeal

noncomputable section

namespace Cert.KernelIdeal.Terms

open Cert.KernelIdeal Cert.KernelIdeal.Facts₀ Cert.KernelIdeal.Facts Idealize.ShloMosaic

variable {F : FTy → Type} [FloatOps F]

def edgeRow0 (a : Vec F S3x600000 .i32) : Vec F S600000 .i32 :=
  shapeCast S600000 (extractStridedSlice S1x600000 ![0, 0] a slices_S3x600000_S1x600000_0_0) shapeCasts_S1x600000_S600000

def edgeRow1 (a : Vec F S3x600000 .i32) : Vec F S600000 .i32 :=
  shapeCast S600000 (extractStridedSlice S1x600000 ![1, 0] a slices_S3x600000_S1x600000_1_0) shapeCasts_S1x600000_S600000

def edgeRow2 (a : Vec F S3x600000 .i32) : Vec F S600000 .i32 :=
  shapeCast S600000 (extractStridedSlice S1x600000 ![2, 0] a slices_S3x600000_S1x600000_2_0) shapeCasts_S1x600000_S600000

def asColumn (s : Vec F S600000 .i32) : Vec F S600000x1 .i32 :=
  broadcastInDim S600000x1 ![0] bcast_S600000_S600000x1_0 s

def wrapped (s : Vec F S600000 .i32) : Vec F S600000 .i32 :=
  select (cmpi .slt s (broadcastInDim S600000 ![] bcast_S_S600000 (constantI S_ 32 0#32)))
    (addi s (broadcastInDim S600000 ![] bcast_S_S600000 (constantI S_ 32 100000#32))) s

def inRange (i : Vec F S600000x1 .i32) : Vec F S600000 .i1 :=
  Host.reduce IntOp.andi
    (andi (cmpi .sge i (broadcastInDim S600000x1 ![] bcast_S_S600000x1 (constantI S_ 32 0#32)))
      (cmpi .sle i (broadcastInDim S600000x1 ![0, 1] bcast_S1x1_S600000x1_0_1 (broadcastInDim S1x1 ![1] bcast_S1_S1x1_1 (constantI S1 32 99999#32)))))
    (constantI S_ 1 1#1) reducesTo_S600000x1_S600000_d1 h_S_

def takePlain (h : Vec F S100000x128 .f32) (s : Vec F S600000 .i32) : Vec F S600000x128 .f32 :=
  Host.gather gather_S100000x128_S600000x1_S600000x128_1_0_n_n_0_1_1128 h (asColumn (wrapped s))

def takeMasked (h : Vec F S100000x128 .f32) (s : Vec F S600000 .i32) : Vec F S600000x128 .f32 :=
  select (broadcastInDim S600000x128 ![0] bcast_S600000_S600000x128_0 (inRange (asColumn (wrapped s))))
    (takePlain h s)
    (broadcastInDim S600000x128 ![] bcast_S_S600000x128 (constant S_ .f32 0x7FC00000#32))

def neighbourSum (rows : Vec F S600000x128 .f32) (d : Vec F S600000 .i32) : Vec F S100000x128 .f32 :=
  Host.scatterAdd scatter_S100000x128_S600000x1_S600000x128_1_0_0_1
    (broadcastInDim S100000x128 ![] bcast_S_S100000x128 (constant S_ .f32 0x00000000#32)) (asColumn d) rows

def degree (d : Vec F S600000 .i32) : Vec F S100000 .f32 :=
  maximumf (broadcastInDim S100000 ![] bcast_S_S100000 (constant S_ .f32 0x3F800000#32))
    (Host.scatterAdd scatter_S100000_S600000x1_S600000_n_0_0_1
      (broadcastInDim S100000 ![] bcast_S_S100000 (constant S_ .f32 0x00000000#32)) (asColumn d)
      (broadcastInDim S600000 ![] bcast_S_S600000 (constant S_ .f32 0x3F800000#32)))

def recipDegree (d : Vec F S600000 .i32) : Vec F S100000x1 .f32 :=
  broadcastInDim S100000x1 ![0] bcast_S100000_S100000x1_0
    (Host.divf (broadcastInDim S100000 ![] bcast_S_S100000 (constant S_ .f32 0x3F800000#32)) (degree d))

end Cert.KernelIdeal.Terms

end
-- ==== Proof.Network.lean ====
import proofs.«429645_j52570399703510_2_alg».proof.Proof.Spec
import proofs.«429645_j52570399703510_2_alg».proof.Proof.HostTerms

noncomputable section

namespace Cert.Sage

open Cert.KernelIdeal Cert.KernelIdeal.Terms Idealize.ShloMosaic Idealize.ShloMosaic.ValueIdx

def weightsOf (a : Vec Ideal S3x3x128x128 .f32) (l : Fin 3) : Wts.Idx → EReal := fun i => a (ix4 l (i 0) (i 1) (i 2))

def biasOf (a : Vec Ideal S3x3x128 .f32) (l : Fin 3) : Bias.Idx → EReal := fun i => a (ix3 l (i 0) (i 1))

def featOf (a : Vec Ideal S3x128 .f32) (l : Fin 3) : Fin 128 → EReal := fun c => a (ix2 l c)

def featRowOf (a : Vec Ideal S3x128 .f32) (l : Fin 3) : Row.Idx → EReal := fun i => a (ix2 l (i 1))

/-- Averaged neighbour features: out-of-range rows replaced while gathering, the sum times one over the degree. -/
def nbKer (h : Vec Ideal S100000x128 .f32) (s d : Vec Ideal S600000 .i32) : Nodes.Idx → EReal :=
  scaleBy (neighbourSum (takeMasked h s) d) (recipDegree d)

/-- Averaged neighbour features: rows gathered as they are, the sum divided by the degree. -/
def nbRef (h : Vec Ideal S100000x128 .f32) (s d : Vec Ideal S600000 .i32) : Nodes.Idx → EReal :=
  divideBy (neighbourSum (takePlain h s) d) (degree d)

def layerKer (relu : Bool) (l : Fin 3) (h : Vec Ideal S100000x128 .f32) (src dst : Vec Ideal S3x600000 .i32)
    (Wself Wneigh : Vec Ideal S3x3x128x128 .f32) (b : Vec Ideal S3x3x128 .f32) (gamma beta : Vec Ideal S3x128 .f32) :
    Nodes.Idx → EReal :=
  layerByBlocks relu h (nbKer h (edgeRow0 src) (edgeRow0 dst)) (nbKer h (edgeRow1 src) (edgeRow1 dst))
    (nbKer h (edgeRow2 src) (edgeRow2 dst)) (weightsOf Wself l) (weightsOf Wneigh l) (biasOf b l)
    (featRowOf gamma l) (featRowOf beta l)

def layerRef (relu : Bool) (l : Fin 3) (h : Vec Ideal S100000x128 .f32) (src dst : Vec Ideal S3x600000 .i32)
    (Wself Wneigh : Vec Ideal S3x3x128x128 .f32) (b : Vec Ideal S3x3x128 .f32) (gamma beta : Vec Ideal S3x128 .f32) :
    Nodes.Idx → EReal :=
  layer relu h (nbRef h (edgeRow0 src) (edgeRow0 dst)) (nbRef h (edgeRow1 src) (edgeRow1 dst))
    (nbRef h (edgeRow2 src) (edgeRow2 dst)) (weightsOf Wself l) (weightsOf Wneigh l) (biasOf b l)
    (featOf gamma l) (featOf beta l)

def netKer (x : Vec Ideal S100000x128 .f32) (src dst : Vec Ideal S3x600000 .i32)
    (Wself Wneigh : Vec Ideal S3x3x128x128 .f32) (b : Vec Ideal S3x3x128 .f32) (gamma beta : Vec Ideal S3x128 .f32) :
    Nodes.Idx → EReal :=
  layerKer false 2 (layerKer true 1 (layerKer true 0 x src dst Wself Wneigh b gamma beta) src dst Wself Wneigh b gamma beta)
    src dst Wself Wneigh b gamma beta

def netRef (x : Vec Ideal S100000x128 .f32) (src dst : Vec Ideal S3x600000 .i32)
    (Wself Wneigh : Vec Ideal S3x3x128x128 .f32) (b : Vec Ideal S3x3x128 .f32) (gamma beta : Vec Ideal S3x128 .f32) :
    Nodes.Idx → EReal :=
  layerRef false 2 (layerRef true 1 (layerRef true 0 x src dst Wself Wneigh b gamma beta) src dst Wself Wneigh b gamma beta)
    src dst Wself Wneigh b gamma beta

/-- Every source index lies in −100000 … 99999. -/
def SrcInRange (src : Vec Ideal S3x600000 .i32) : Prop :=
  ∀ i : S3x600000.Idx, (-100000 : Int) ≤ (src i).toInt ∧ (src i).toInt < 100000

end Cert.Sage

end
-- ==== Proof.ConvValue.lean ====
import proofs.«429645_j52570399703510_2_alg».proof.Proof.Gen.KernelIdeal.Frame
import proofs.«429645_j52570399703510_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

namespace Conv

open Cert.Sage (Nodes Col Wts Bias Blocks scaleBy msg acc accAt rowBlockSums rowOf)

theorem dotLhs (i : S5000x128.Idx) (k : dot_S5000x128_S128x128_S5000x128_1_0_0_1_n_n.contr.Idx) :
    (dot_S5000x128_S128x128_S5000x128_1_0_0_1_n_n.lhsIdx i k 0).val = (i 0).val ∧ (dot_S5000x128_S128x128_S5000x128_1_0_0_1_n_n.lhsIdx i k 1).val = (k ⟨0, by decide⟩).val := by
  refine ⟨?_, dot_S5000x128_S128x128_S5000x128_1_0_0_1_n_n.lhsIdx_val_of_single rfl i k⟩
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotRhs (i : S5000x128.Idx) (k : dot_S5000x128_S128x128_S5000x128_1_0_0_1_n_n.contr.Idx) :
    (dot_S5000x128_S128x128_S5000x128_1_0_0_1_n_n.rhsIdx i k 0).val = (k ⟨0, by decide⟩).val ∧ (dot_S5000x128_S128x128_S5000x128_1_0_0_1_n_n.rhsIdx i k 1).val = (i 1).val := by
  refine ⟨dot_S5000x128_S128x128_S5000x128_1_0_0_1_n_n.rhsIdx_val_of_single rfl i k, ?_⟩
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a 5000 × 128 block times a 128 × 128 matrix, added to zero, is the row-by-column sum. -/
theorem matmul_at (lhs : FVec Ideal S5000x128 .f32) (rhs : FVec Ideal S128x128 .f32) (p : Fin 5000) (q : Fin 128) :
    matmul dot_S5000x128_S128x128_S5000x128_1_0_0_1_n_n none lhs rhs (constant (F := Ideal) S5000x128 .f32 0x00000000#32) (ix2 p q)
      = ∑ j : Fin 128, lhs (ix2 p j) * rhs (ix2 j q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact (dotLhs _ _).1
    | ⟨1, _⟩ => exact (dotLhs _ _).2.trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dotRhs _ _).1.trans hk
    | ⟨1, _⟩ => exact (dotRhs _ _).2)
  rw [el, er]

theorem zeroOff2 : (![0, 0] : Fin 2 → Nat) = fun _ => 0 := funext fun a => by fin_cases a <;> rfl
theorem zeroOff3 : (![0, 0, 0] : Fin 3 → Nat) = fun _ => 0 := funext fun a => by fin_cases a <;> rfl

theorem inb3 (k : Fin 3) : ∀ a, (![k.val, 0, 0] : Fin 3 → Nat) a + S1x128x128.size a ≤ S3x128x128.size a := fun a => by
  match a with
  | ⟨0, _⟩ => exact k.isLt
  | ⟨1, _⟩ => exact Nat.le_refl _
  | ⟨2, _⟩ => exact Nat.le_refl _
theorem inb2 (k : Fin 3) : ∀ a, (![k.val, 0] : Fin 2 → Nat) a + S1x128.size a ≤ S3x128.size a := fun a => by
  match a with
  | ⟨0, _⟩ => exact k.isLt
  | ⟨1, _⟩ => exact Nat.le_refl _

/-- Edge type `k`'s matrix of a stack of three, as a 1 × 128 × 128 block. -/
def slab (W : Vec Ideal S3x128x128 .f32) (k : Fin 3) : Vec Ideal S1x128x128 .f32 :=
  View.ld W (Rect.unit (s := S3x128x128) ![k.val, 0, 0] S1x128x128.size (inb3 k))

/-- Edge type `k`'s row of the 3 × 128 bias, as a 1 × 128 block. -/
def biasRow (B : Vec Ideal S3x128 .f32) (k : Fin 3) : Vec Ideal S1x128 .f32 :=
  View.ld B (Rect.unit (s := S3x128) ![k.val, 0] S1x128.size (inb2 k))

theorem weight_at (W : Vec Ideal S3x128x128 .f32) (k : Fin 3) (j q : Fin 128) :
    shapeCast S128x128 (slab W k) shapeCasts_S1x128x128_S128x128 (ix2 j q) = W (ix3 k j q) := by
  refine (shapeCast_1ab_ab_apply (slab W k) shapeCasts_S1x128x128_S128x128 j q).trans ?_
  show W ((Rect.unit (s := S3x128x128) ![k.val, 0, 0] S1x128x128.size (inb3 k)).idx (ix3 (0 : Fin 1) j q)) = W (ix3 k j q)
  refine congrArg W (funext fun a => Fin.ext ?_)
  match a with
  | ⟨0, _⟩ => show k.val + 1 * 0 = k.val; omega
  | ⟨1, _⟩ => show 0 + 1 * j.val = j.val; omega
  | ⟨2, _⟩ => show 0 + 1 * q.val = q.val; omega

/-- The bias row, flattened, made a row again and repeated down the 5000 rows, reads at (p, q) the bias at (k, q). -/
theorem bias_at (B : Vec Ideal S3x128 .f32) (k : Fin 3) (p : Fin 5000) (q : Fin 128) :
    broadcastTo S5000x128 (shapeCast S1x128 (shapeCast S128 (biasRow B k) shapeCasts_S1x128_S128) shapeCasts_S128_S1x128)
        broadcasts_S1x128_S5000x128 (ix2 p q)
      = B (ix2 k q) := by
  refine (broadcastTo_1b_ab_apply _ broadcasts_S1x128_S5000x128 p q).trans ?_
  rw [shapeCast_shapeCast]
  show B ((Rect.unit (s := S3x128) ![k.val, 0] S1x128.size (inb2 k)).idx (ix2 (0 : Fin 1) q)) = B (ix2 k q)
  refine congrArg B (funext fun a => Fin.ext ?_)
  match a with
  | ⟨0, _⟩ => show k.val + 1 * 0 = k.val; omega
  | ⟨1, _⟩ => show 0 + 1 * q.val = q.val; omega

/-- A 5000 × 1 column repeated along the 128 features reads at (p, q) the column at (p, 0). -/
theorem column_at (s : FVec Ideal S5000x1 .f32) (p : Fin 5000) (q : Fin 128) :
    broadcastTo S5000x128 (shapeCast S5000x1 s shapeCasts_S5000x1_S5000x1) broadcasts_S5000x1_S5000x128 (ix2 p q) = s (ix2 p (0 : Fin 1)) := by
  rw [shapeCast_self]
  refine broadcastTo_apply s broadcasts_S5000x1_S5000x128 (ix2 p q) (ix2 p (0 : Fin 1)) fun ax => ?_
  match ax with
  | ⟨0, _⟩ => rfl
  | ⟨1, _⟩ => rfl

/-- One edge type's term on a block of 5000 rows before the activation: x · A + (ns ∘ s) · B + C, entry by entry. -/
def edgeLin (x ns : FVec Ideal S5000x128 .f32) (s : FVec Ideal S5000x1 .f32) (A B : FVec Ideal S1x128x128 .f32) (C : FVec Ideal S1x128 .f32) :
    FVec Ideal S5000x128 .f32 :=
  addf
    (addf
      (matmul dot_S5000x128_S128x128_S5000x128_1_0_0_1_n_n none x (shapeCast S128x128 A shapeCasts_S1x128x128_S128x128) (constant S5000x128 .f32 0x00000000#32))
      (matmul dot_S5000x128_S128x128_S5000x128_1_0_0_1_n_n none
        (mulf (shapeCast S5000x128 ns shapeCasts_S5000x128_S5000x128)
          (broadcastTo S5000x128 (shapeCast S5000x1 s shapeCasts_S5000x1_S5000x1) broadcasts_S5000x1_S5000x128))
        (shapeCast S128x128 B shapeCasts_S1x128x128_S128x128) (constant S5000x128 .f32 0x00000000#32)))
    (broadcastTo S5000x128 (shapeCast S1x128 (shapeCast S128 C shapeCasts_S1x128_S128) shapeCasts_S128_S1x128) broadcasts_S1x128_S5000x128)

/-- The same through max · 0 in the layers that have an activation. -/
def edgeTerm (relu : Bool) (x ns : FVec Ideal S5000x128 .f32) (s : FVec Ideal S5000x1 .f32) (A B : FVec Ideal S1x128x128 .f32) (C : FVec Ideal S1x128 .f32) :
    FVec Ideal S5000x128 .f32 :=
  if relu then maximumf (edgeLin x ns s A B C) (broadcast S5000x128 (Scalar.ofBits .f32 0x00000000#32)) else edgeLin x ns s A B C

/-- If row `p` of the blocks is row `n` of the arrays, entry (p, q) of edge type `k`'s term is that edge type's contribution at node `n`. -/
theorem edgeTerm_at (relu : Bool) (H N : Nodes.Idx → EReal) (D : Col.Idx → EReal) (Ws Wn : Vec Ideal S3x128x128 .f32) (Bi : Vec Ideal S3x128 .f32)
    (x ns : FVec Ideal S5000x128 .f32) (s : FVec Ideal S5000x1 .f32) (k : Fin 3) (n : Fin 100000) (p : Fin 5000) (q : Fin 128)
    (ex : ∀ j : Fin 128, x (ix2 p j) = H (ix2 n j)) (ens : ∀ j : Fin 128, ns (ix2 p j) = N (ix2 n j))
    (es : s (ix2 p (0 : Fin 1)) = D (ix2 n (0 : Fin 1))) :
    edgeTerm relu x ns s (slab Ws k) (slab Wn k) (biasRow Bi k) (ix2 p q) = msg relu H (scaleBy N D) Ws Wn Bi k n q := by
  have en : ∀ j : Fin 128, mulf (shapeCast S5000x128 ns shapeCasts_S5000x128_S5000x128)
        (broadcastTo S5000x128 (shapeCast S5000x1 s shapeCasts_S5000x1_S5000x1) broadcasts_S5000x1_S5000x128) (ix2 p j)
      = scaleBy N D (ix2 n j) := fun j => by
    rw [mulf_apply, shapeCast_self, column_at, ens, es]; rfl
  have eo : edgeLin x ns s (slab Ws k) (slab Wn k) (biasRow Bi k) (ix2 p q)
      = (∑ j : Fin 128, H (ix2 n j) * Ws (ix3 k j q) + ∑ j : Fin 128, scaleBy N D (ix2 n j) * Wn (ix3 k j q)) + Bi (ix2 k q) := by
    unfold edgeLin
    rw [addf_apply, addf_apply, matmul_at, matmul_at, bias_at]
    simp only [fun j => weight_at Ws k j q, fun j => weight_at Wn k j q, en, ex]
  cases relu
  · exact eo
  · show max _ (Scalar.ofBits (F := Ideal) .f32 0x00000000#32) = max _ 0
    rw [eo, show (Scalar.ofBits (F := Ideal) .f32 0x00000000#32) = (0 : EReal) from Ideal.ofBits_zero_f32]

section Body

variable (relu : Bool) (f : Vec Ideal S5000x128 .f32 → FVec Ideal S5000x128 .f32)
  (x0 x1 x2 x3 : Vec Ideal S5000x128 .f32) (x4 x5 x6 : Vec Ideal S5000x1 .f32) (x7 x8 : Vec Ideal S3x128x128 .f32) (x9 : Vec Ideal S3x128 .f32)

/-- The three edge types' terms added onto a zero block, in order; `f` (the identity, or a cast to its own shape) is applied to the node features first. -/
def stored : FVec Ideal S5000x128 .f32 :=
  addf (addf (addf (broadcast S5000x128 (Scalar.ofBits .f32 0x00000000#32))
      (edgeTerm relu (f (View.ld x0 r0_0)) (View.ld x1 r0_0) (View.ld x4 r0_1) (slab x7 0) (slab x8 0) (biasRow x9 0)))
      (edgeTerm relu (f (View.ld x0 r0_0)) (View.ld x2 r0_0) (View.ld x5 r0_1) (slab x7 1) (slab x8 1) (biasRow x9 1)))
    (edgeTerm relu (f (View.ld x0 r0_0)) (View.ld x3 r0_0) (View.ld x6 r0_1) (slab x7 2) (slab x8 2) (biasRow x9 2))

def out10 : Vec Ideal S5000x128 .f32 := View.canon [⟨r0_0, stored relu f x0 x1 x2 x3 x4 x5 x6 x7 x8 x9⟩]

def out11 : Vec Ideal S1x1x128 .f32 :=
  View.canon [⟨r0_8, shapeCast S1x1x128 (shapeCast S1x128
    (multiReduction .add [0] S128 (stored relu f x0 x1 x2 x3 x4 x5 x6 x7 x8 x9) 0x00000000#32 reduces_S5000x128_S128 (.inl rfl) rfl)
    shapeCasts_S128_S1x128) shapeCasts_S1x128_S1x1x128⟩]

/-- The second output's 1 × 1 × 128 block at feature `q` is the first output's block summed over its 5000 rows. -/
theorem sums_at (u0 u1 : Fin 1) (q : Fin 128) :
    out11 relu f x0 x1 x2 x3 x4 x5 x6 x7 x8 x9 (ix3 u0 u1 q) = ∑ p : Fin 5000, out10 relu f x0 x1 x2 x3 x4 x5 x6 x7 x8 x9 (ix2 p q) := by
  unfold out11 out10
  rw [View.canon_unit_zero zeroOff3, View.canon_unit_zero zeroOff2]
  refine (shapeCast_ab_1ab_apply _ shapeCasts_S1x128_S1x1x128 u0 u1 q).trans ?_
  refine (shapeCast_a_1a_apply _ shapeCasts_S128_S1x128 u1 q).trans ?_
  refine (Ideal.multiReduction_add_single _ 0x00000000#32 reduces_S5000x128_S128 _ _ (ix1 q)).trans ?_
  refine Finset.sum_congr rfl fun p _ => congrArg (stored relu f x0 x1 x2 x3 x4 x5 x6 x7 x8 x9) (funext fun a => ?_)
  match a with
  | ⟨0, _⟩ => rfl
  | ⟨1, _⟩ => rfl

end Body

theorem out0_10_eq : out0_10 (F := Ideal) = out10 true id := rfl
theorem out0_11_eq : out0_11 (F := Ideal) = out11 true id := rfl
theorem out3_10_eq : out3_10 (F := Ideal) = out10 true k3_pay2 := rfl
theorem out3_11_eq : out3_11 (F := Ideal) = out11 true k3_pay2 := rfl
theorem out6_10_eq : out6_10 (F := Ideal) = out10 false k6_pay1 := rfl
theorem out6_11_eq : out6_11 (F := Ideal) = out11 false k6_pay1 := rfl

/-- If `e` moves no coordinate, `A` read through `e` is `A`. -/
theorem comp_whole {S : Shape} {α : Type} (A : S.Idx → α) {e : S.Idx → S.Idx} {b : Fin S.rank → Nat}
    (he : ∀ y a, (e y a : Nat) = b a * S.size a + y a) (hb : ∀ a, b a = 0) : (fun y => A (e y)) = A :=
  funext fun y => congrArg A (funext fun a => Fin.ext (by rw [he, hb, Nat.zero_mul, Nat.zero_add]))

/-- If `e` shifts rows by r·t and keeps columns, it sends (p, j) to (r·t + p, j). -/
theorem rowEmb {R C r : Nat} {e : (⟨2, ![r, C]⟩ : Shape).Idx → (⟨2, ![R, C]⟩ : Shape).Idx} {b : Fin 2 → Nat} {t : Nat}
    (he : ∀ (y : (⟨2, ![r, C]⟩ : Shape).Idx) (a : Fin 2), (e y a : Nat) = b a * (![r, C] : Fin 2 → Nat) a + y a) (hb : b 0 = t ∧ b 1 = 0)
    (p : Fin r) (j : Fin C) (n : Fin R) (hn : n.val = t * r + p.val) : e (ix2 p j) = ix2 n j := by
  refine funext fun a => Fin.ext ?_
  match a with
  | ⟨0, _⟩ => exact (he (ix2 p j) 0).trans (by rw [hb.1]; exact hn.symm)
  | ⟨1, _⟩ => exact (he (ix2 p j) 1).trans (by rw [hb.2]; exact (Nat.zero_mul _).symm ▸ Nat.zero_add _)

section Point

variable (relu : Bool) {f : Vec Ideal S5000x128 .f32 → FVec Ideal S5000x128 .f32} (hf : ∀ v, f v = v)
  (H N0 N1 N2 : Nodes.Idx → EReal) (D0 D1 D2 : Col.Idx → EReal) (Ws Wn : Wts.Idx → EReal) (Bi : Bias.Idx → EReal)
  {e : S5000x128.Idx → Nodes.Idx} {e' : S5000x1.Idx → Col.Idx} {e3 : S3x128x128.Idx → Wts.Idx} {e2 : S3x128.Idx → Bias.Idx}
  {b b' b2 : Fin 2 → Nat} {b3 : Fin 3 → Nat} {t : Nat}
  (he : ∀ (y : S5000x128.Idx) (a : Fin 2), (e y a : Nat) = b a * S5000x128.size a + y a) (hb : b 0 = t ∧ b 1 = 0)
  (he' : ∀ (y : S5000x1.Idx) (a : Fin 2), (e' y a : Nat) = b' a * S5000x1.size a + y a) (hb' : b' 0 = t ∧ b' 1 = 0)
  (he3 : ∀ (y : S3x128x128.Idx) (a : Fin 3), (e3 y a : Nat) = b3 a * S3x128x128.size a + y a) (hb3 : ∀ a, b3 a = 0)
  (he2 : ∀ (y : S3x128.Idx) (a : Fin 2), (e2 y a : Nat) = b2 a * S3x128.size a + y a) (hb2 : ∀ a, b2 a = 0)
  {x0 x1 x2 x3 : Vec Ideal S5000x128 .f32} {x4 x5 x6 : Vec Ideal S5000x1 .f32} {x7 x8 : Vec Ideal S3x128x128 .f32} {x9 : Vec Ideal S3x128 .f32}
  (h0 : x0 = fun y => H (e y)) (h1 : x1 = fun y => N0 (e y)) (h2 : x2 = fun y => N1 (e y)) (h3 : x3 = fun y => N2 (e y))
  (h4 : x4 = fun y => D0 (e' y)) (h5 : x5 = fun y => D1 (e' y)) (h6 : x6 = fun y => D2 (e' y))
  (h7 : x7 = fun y => Ws (e3 y)) (h8 : x8 = fun y => Wn (e3 y)) (h9 : x9 = fun y => Bi (e2 y))

include hf he hb he' hb' he3 hb3 he2 hb2 h0 h1 h2 h3 h4 h5 h6 h7 h8 h9

/-- With the node arrays read at rows 5000·t + p and the weights and the bias read whole, entry `y` of `out10` is the three contributions added, at `e y`. -/
theorem out10_at (y : S5000x128.Idx) :
    out10 relu f x0 x1 x2 x3 x4 x5 x6 x7 x8 x9 y = acc relu H (scaleBy N0 D0) (scaleBy N1 D1) (scaleBy N2 D2) Ws Wn Bi (e y) := by
  subst h0 h1 h2 h3 h4 h5 h6 h7 h8 h9
  obtain ⟨p, q, rfl⟩ : ∃ (p : Fin 5000) (q : Fin 128), y = ix2 p q := ⟨y 0, y 1, eq_ix2 y⟩
  obtain ⟨n, hn⟩ : ∃ n : Fin 100000, n.val = t * 5000 + p.val := ⟨e (ix2 p q) 0, (he _ 0).trans (by rw [hb.1]; rfl)⟩
  have hr := fun j => rowEmb he hb p j n hn
  have hr' := rowEmb he' hb' p (0 : Fin 1) n hn
  rw [comp_whole Ws he3 hb3, comp_whole Wn he3 hb3, comp_whole Bi he2 hb2, hr q]
  unfold out10 stored
  rw [View.canon_unit_zero zeroOff2]
  simp only [View.ld_unit_zero (S := S5000x128) zeroOff2, View.ld_unit_zero (S := S5000x1) zeroOff2, hf]
  rw [addf_apply, addf_apply, addf_apply, broadcast_apply,
    edgeTerm_at relu H N0 D0 Ws Wn Bi _ _ _ 0 n p q (fun j => congrArg H (hr j)) (fun j => congrArg N0 (hr j)) (congrArg D0 hr'),
    edgeTerm_at relu H N1 D1 Ws Wn Bi _ _ _ 1 n p q (fun j => congrArg H (hr j)) (fun j => congrArg N1 (hr j)) (congrArg D1 hr'),
    edgeTerm_at relu H N2 D2 Ws Wn Bi _ _ _ 2 n p q (fun j => congrArg H (hr j)) (fun j => congrArg N2 (hr j)) (congrArg D2 hr'),
    show (Scalar.ofBits (F := Ideal) .f32 0x00000000#32) = (0 : EReal) from Ideal.ofBits_zero_f32, zero_add]
  rfl

/-- And entry `y` of `out11` is those 5000 rows summed, feature by feature. -/
theorem out11_at {e11 : S1x1x128.Idx → (Blocks 20).Idx} {b11 : Fin 3 → Nat}
    (he11 : ∀ (y : S1x1x128.Idx) (a : Fin 3), (e11 y a : Nat) = b11 a * S1x1x128.size a + y a) (hb11 : b11 0 = t ∧ b11 1 = 0 ∧ b11 2 = 0)
    (y : S1x1x128.Idx) :
    out11 relu f x0 x1 x2 x3 x4 x5 x6 x7 x8 x9 y = rowBlockSums (B := 20) (R := 5000) (by decide) (acc relu H (scaleBy N0 D0) (scaleBy N1 D1) (scaleBy N2 D2) Ws Wn Bi) (e11 y) := by
  obtain ⟨u0, u1, q, rfl⟩ : ∃ (u0 u1 : Fin 1) (q : Fin 128), y = ix3 u0 u1 q := ⟨y 0, y 1, y 2, eq_ix3 y⟩
  rw [sums_at]
  show _ = ∑ r : Fin 5000, acc relu H (scaleBy N0 D0) (scaleBy N1 D1) (scaleBy N2 D2) Ws Wn Bi (ix2 (rowOf (B := 20) (R := 5000) (by decide) (e11 (ix3 u0 u1 q) 0) r) (e11 (ix3 u0 u1 q) 2))
  refine Finset.sum_congr rfl fun r _ => ?_
  rw [out10_at relu hf H N0 N1 N2 D0 D1 D2 Ws Wn Bi he hb he' hb' he3 hb3 he2 hb2 h0 h1 h2 h3 h4 h5 h6 h7 h8 h9 (ix2 r q)]
  have k0 : (e11 (ix3 u0 u1 q) 0 : Nat) = b11 0 * 1 + u0.val := he11 _ 0
  have k2 : (e11 (ix3 u0 u1 q) 2 : Nat) = b11 2 * 128 + q.val := he11 _ 2
  have g0 : (e (ix2 r q) 0 : Nat) = b 0 * 5000 + r.val := he _ 0
  have g1 : (e (ix2 r q) 1 : Nat) = b 1 * 128 + q.val := he _ 1
  obtain ⟨c0, -, c2⟩ := hb11
  have := u0.isLt
  refine congrArg (acc relu H (scaleBy N0 D0) (scaleBy N1 D1) (scaleBy N2 D2) Ws Wn Bi) (funext fun a => Fin.ext ?_)
  match a with
  | ⟨0, _⟩ => show (e (ix2 r q) 0 : Nat) = 5000 * (e11 (ix3 u0 u1 q) 0 : Nat) + r.val; omega
  | ⟨1, _⟩ => show (e (ix2 r q) 1 : Nat) = (e11 (ix3 u0 u1 q) 2 : Nat); omega

end Point

theorem rowMap : ∀ t : Fin grid0.N, cc0_transform_0 (grid0.coords t) 0 = t.val ∧ cc0_transform_0 (grid0.coords t) 1 = 0 := by
  decide +kernel
theorem rowMap3 : ∀ t : Fin grid0.N, cc0_transform_11 (grid0.coords t) 0 = t.val ∧ cc0_transform_11 (grid0.coords t) 1 = 0
    ∧ cc0_transform_11 (grid0.coords t) 2 = 0 := by
  decide +kernel
theorem zeroMap3 (t : Fin grid0.N) (a : Fin 3) : cc0_transform_7 (grid0.coords t) a = 0 := by fin_cases a <;> rfl
theorem zeroMap2 (t : Fin grid0.N) (a : Fin 2) : cc0_transform_9 (grid0.coords t) a = 0 := by fin_cases a <;> rfl

/-- The point whose block of 5000 rows holds row `i 0`. -/
def blockOf (i : Nodes.Idx) : Fin grid0.N := ⟨(i 0).val / 5000, by rw [N_0]; have : (i 0).val < 100000 := (i 0).isLt; omega⟩

/-- The point whose row of block sums is row `i 0`. -/
def sumBlockOf (i : (Blocks 20).Idx) : Fin grid0.N := ⟨(i 0).val, lt_of_lt_of_eq (i 0).isLt N_0.symm⟩

theorem mem_whole_slice (b : Ref sig .tc) {r : Rect b.ty.shape} {i : b.ty.shape.Idx} (h : i ∈ r.set) : i ∈ ((View.whole b).slice r).set :=
  (View.set_slice_whole b r).symm ▸ h

theorem cover10 {b : Fin 2 → Nat} {inb} (i : Nodes.Idx) (hb : b 0 = (i 0).val / 5000 ∧ b 1 = 0) :
    i ∈ (Rect.unit (s := S100000x128) (fun a => b a * S5000x128.size a) S5000x128.size inb).set := by
  rw [Rect.mem_set_unit]
  have h1 : (i 1).val < 128 := (i 1).isLt
  intro a
  match a with
  | ⟨0, _⟩ => show b 0 * 5000 ≤ (i 0).val ∧ (i 0).val < b 0 * 5000 + 5000; omega
  | ⟨1, _⟩ => show b 1 * 128 ≤ (i 1).val ∧ (i 1).val < b 1 * 128 + 128; omega

theorem cover11 {b : Fin 3 → Nat} {inb} (i : (Blocks 20).Idx) (hb : b 0 = (i 0).val ∧ b 1 = 0 ∧ b 2 = 0) :
    i ∈ (Rect.unit (s := S20x1x128) (fun a => b a * S1x1x128.size a) S1x1x128.size inb).set := by
  rw [Rect.mem_set_unit]
  have h1 : (i 1).val < 1 := (i 1).isLt
  have h2 : (i 2).val < 128 := (i 2).isLt
  intro a
  match a with
  | ⟨0, _⟩ => show b 0 * 1 ≤ (i 0).val ∧ (i 0).val < b 0 * 1 + 1; omega
  | ⟨1, _⟩ => show b 1 * 1 ≤ (i 1).val ∧ (i 1).val < b 1 * 1 + 1; omega
  | ⟨2, _⟩ => show b 2 * 128 ≤ (i 2).val ∧ (i 2).val < b 2 * 128 + 128; omega

end Conv

theorem acc0 (c : Dev nD) :
    (dat0 (F := Ideal) V c).arrAt 10 cfg0.N
      = Cert.Sage.acc true (V c main_arg0) (Cert.Sage.scaleBy (V c main_v35) (V c main_v21)) (Cert.Sage.scaleBy (V c main_v43) (V c main_v24))
          (Cert.Sage.scaleBy (V c main_v51) (V c main_v27)) (V c main_v53) (V c main_v55) (V c main_v57) :=
  (dat0 (F := Ideal) V c).arrAt_eq_of_cover 10 _
    (fun t _ => by
      show (cfg0.win 10).cut (grid0.coords t) ((dat0 (F := Ideal) V c).after 10 t) = _
      rw [after0_10, Conv.out0_10_eq]
      exact funext (Conv.out10_at true (fun _ => rfl) _ _ _ _ _ _ _ _ _ _
        (Window.rect_emb_val win0_0 t) (Conv.rowMap t) (Window.rect_emb_val win0_4 t) (Conv.rowMap t)
        (Window.rect_emb_val win0_7 t) (Conv.zeroMap3 t) (Window.rect_emb_val win0_9 t) (Conv.zeroMap2 t)
        rfl rfl rfl rfl rfl rfl rfl rfl rfl rfl))
    (fun i => ⟨Conv.blockOf i, flush0_10 _, Conv.mem_whole_slice main_v58_0 (Conv.cover10 i (Conv.rowMap _))⟩)

theorem sums0 (c : Dev nD) :
    (dat0 (F := Ideal) V c).arrAt 11 cfg0.N
      = Cert.Sage.rowBlockSums (B := 20) (R := 5000) (by decide)
          (Cert.Sage.acc true (V c main_arg0) (Cert.Sage.scaleBy (V c main_v35) (V c main_v21)) (Cert.Sage.scaleBy (V c main_v43) (V c main_v24))
          (Cert.Sage.scaleBy (V c main_v51) (V c main_v27)) (V c main_v53) (V c main_v55) (V c main_v57)) :=
  (dat0 (F := Ideal) V c).arrAt_eq_of_cover 11 _
    (fun t _ => by
      show (cfg0.win 11).cut (grid0.coords t) ((dat0 (F := Ideal) V c).after 11 t) = _
      rw [after0_11, Conv.out0_11_eq]
      exact funext (Conv.out11_at true (fun _ => rfl) _ _ _ _ _ _ _ _ _ _
        (Window.rect_emb_val win0_0 t) (Conv.rowMap t) (Window.rect_emb_val win0_4 t) (Conv.rowMap t)
        (Window.rect_emb_val win0_7 t) (Conv.zeroMap3 t) (Window.rect_emb_val win0_9 t) (Conv.zeroMap2 t)
        rfl rfl rfl rfl rfl rfl rfl rfl rfl rfl
        (Window.rect_emb_val win0_11 t) (Conv.rowMap3 t)))
    (fun i => ⟨Conv.sumBlockOf i, flush0_11 _, Conv.mem_whole_slice main_v58_1 (Conv.cover11 i (Conv.rowMap3 _))⟩)

theorem acc3 (c : Dev nD) :
    (dat3 (F := Ideal) V c).arrAt 10 cfg3.N
      = Cert.Sage.acc true (V c main_v72) (Cert.Sage.scaleBy (V c main_v80) (V c main_v21)) (Cert.Sage.scaleBy (V c main_v88) (V c main_v24))
          (Cert.Sage.scaleBy (V c main_v96) (V c main_v27)) (V c main_v98) (V c main_v100) (V c main_v102) :=
  (dat3 (F := Ideal) V c).arrAt_eq_of_cover 10 _
    (fun t _ => by
      show (cfg3.win 10).cut (grid3.coords t) ((dat3 (F := Ideal) V c).after 10 t) = _
      rw [after3_10, Conv.out3_10_eq]
      exact funext (Conv.out10_at true (fun v => shapeCast_self v _) _ _ _ _ _ _ _ _ _ _
        (Window.rect_emb_val win3_0 t) (Conv.rowMap t) (Window.rect_emb_val win3_4 t) (Conv.rowMap t)
        (Window.rect_emb_val win3_7 t) (Conv.zeroMap3 t) (Window.rect_emb_val win3_9 t) (Conv.zeroMap2 t)
        rfl rfl rfl rfl rfl rfl rfl rfl rfl rfl))
    (fun i => ⟨Conv.blockOf i, flush3_10 _, Conv.mem_whole_slice main_v103_0 (Conv.cover10 i (Conv.rowMap _))⟩)

theorem sums3 (c : Dev nD) :
    (dat3 (F := Ideal) V c).arrAt 11 cfg3.N
      = Cert.Sage.rowBlockSums (B := 20) (R := 5000) (by decide)
          (Cert.Sage.acc true (V c main_v72) (Cert.Sage.scaleBy (V c main_v80) (V c main_v21)) (Cert.Sage.scaleBy (V c main_v88) (V c main_v24))
          (Cert.Sage.scaleBy (V c main_v96) (V c main_v27)) (V c main_v98) (V c main_v100) (V c main_v102)) :=
  (dat3 (F := Ideal) V c).arrAt_eq_of_cover 11 _
    (fun t _ => by
      show (cfg3.win 11).cut (grid3.coords t) ((dat3 (F := Ideal) V c).after 11 t) = _
      rw [after3_11, Conv.out3_11_eq]
      exact funext (Conv.out11_at true (fun v => shapeCast_self v _) _ _ _ _ _ _ _ _ _ _
        (Window.rect_emb_val win3_0 t) (Conv.rowMap t) (Window.rect_emb_val win3_4 t) (Conv.rowMap t)
        (Window.rect_emb_val win3_7 t) (Conv.zeroMap3 t) (Window.rect_emb_val win3_9 t) (Conv.zeroMap2 t)
        rfl rfl rfl rfl rfl rfl rfl rfl rfl rfl
        (Window.rect_emb_val win3_11 t) (Conv.rowMap3 t)))
    (fun i => ⟨Conv.sumBlockOf i, flush3_11 _, Conv.mem_whole_slice main_v103_1 (Conv.cover11 i (Conv.rowMap3 _))⟩)

theorem acc6 (c : Dev nD) :
    (dat6 (F := Ideal) V c).arrAt 10 cfg6.N
      = Cert.Sage.acc false (V c main_v117) (Cert.Sage.scaleBy (V c main_v125) (V c main_v21)) (Cert.Sage.scaleBy (V c main_v133) (V c main_v24))
          (Cert.Sage.scaleBy (V c main_v141) (V c main_v27)) (V c main_v143) (V c main_v145) (V c main_v147) :=
  (dat6 (F := Ideal) V c).arrAt_eq_of_cover 10 _
    (fun t _ => by
      show (cfg6.win 10).cut (grid6.coords t) ((dat6 (F := Ideal) V c).after 10 t) = _
      rw [after6_10, Conv.out6_10_eq]
      exact funext (Conv.out10_at false (fun v => shapeCast_self v _) _ _ _ _ _ _ _ _ _ _
        (Window.rect_emb_val win6_0 t) (Conv.rowMap t) (Window.rect_emb_val win6_4 t) (Conv.rowMap t)
        (Window.rect_emb_val win6_7 t) (Conv.zeroMap3 t) (Window.rect_emb_val win6_9 t) (Conv.zeroMap2 t)
        rfl rfl rfl rfl rfl rfl rfl rfl rfl rfl))
    (fun i => ⟨Conv.blockOf i, flush6_10 _, Conv.mem_whole_slice main_v148_0 (Conv.cover10 i (Conv.rowMap _))⟩)

theorem sums6 (c : Dev nD) :
    (dat6 (F := Ideal) V c).arrAt 11 cfg6.N
      = Cert.Sage.rowBlockSums (B := 20) (R := 5000) (by decide)
          (Cert.Sage.acc false (V c main_v117) (Cert.Sage.scaleBy (V c main_v125) (V c main_v21)) (Cert.Sage.scaleBy (V c main_v133) (V c main_v24))
          (Cert.Sage.scaleBy (V c main_v141) (V c main_v27)) (V c main_v143) (V c main_v145) (V c main_v147)) :=
  (dat6 (F := Ideal) V c).arrAt_eq_of_cover 11 _
    (fun t _ => by
      show (cfg6.win 11).cut (grid6.coords t) ((dat6 (F := Ideal) V c).after 11 t) = _
      rw [after6_11, Conv.out6_11_eq]
      exact funext (Conv.out11_at false (fun v => shapeCast_self v _) _ _ _ _ _ _ _ _ _ _
        (Window.rect_emb_val win6_0 t) (Conv.rowMap t) (Window.rect_emb_val win6_4 t) (Conv.rowMap t)
        (Window.rect_emb_val win6_7 t) (Conv.zeroMap3 t) (Window.rect_emb_val win6_9 t) (Conv.zeroMap2 t)
        rfl rfl rfl rfl rfl rfl rfl rfl rfl rfl
        (Window.rect_emb_val win6_11 t) (Conv.rowMap3 t)))
    (fun i => ⟨Conv.sumBlockOf i, flush6_11 _, Conv.mem_whole_slice main_v148_1 (Conv.cover11 i (Conv.rowMap3 _))⟩)

end Cert.KernelIdeal.RegionValue

end
-- ==== Proof.StatsValue.lean ====
import proofs.«429645_j52570399703510_2_alg».proof.Proof.Gen.KernelIdeal.Frame
import proofs.«429645_j52570399703510_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

namespace Stats

open Cert.Sage

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- When the block holds rows `10000·T …` of `A` and the row holds `M`, the payload is block `T`'s sums of squares. -/
theorem pay_eq (A : Nodes.Idx → EReal) (M : Row.Idx → EReal) (T : Fin 10) (x0 : FVec Ideal S10000x128 .f32)
    (x1 : FVec Ideal S1x128 .f32) (h0 : ∀ p q, x0 (ix2 p q) = A (ix2 (rowOf (B := 10) (R := 10000) (by decide) T p) q))
    (h1 : ∀ q, x1 (ix2 0 q) = M (ix2 0 q)) (u v : Fin 1) (q : Fin 128) :
    k1_pay1 (F := Ideal) x0 x1 (ix3 u v q) = rowBlockSquares (B := 10) (R := 10000) (by decide) A M (ix3 T v q) := by
  unfold k1_pay1
  refine (shapeCast_ab_1ab_apply _ _ u v q).trans ((shapeCast_a_1a_apply _ _ v q).trans
    ((Ideal.multiReduction_add_single _ _ _ _ _ (ix1 q)).trans (Finset.sum_congr rfl fun (p : Fin 10000) _ => ?_)))
  rw [show reduces_S10000x128_S128.lift (ix1 q) p = ix2 p q from Shape.idx_ext₂ rfl rfl, mulf_apply, subf_apply,
    shapeCast_self, shapeCast_self, broadcastTo_1b_ab_apply, h0, h1]

/-- The block of `X` at block index `x`, for blocks of sizes `n`. -/
abbrev sub {α : Type} {T : Shape} (X : T.Idx → α) (n x : Fin T.rank → ℕ) (inb : ∀ a, x a * n a + n a ≤ T.size a) :
    (⟨T.rank, n⟩ : Shape).Idx → α := fun y => X ((Rect.unit (fun a => x a * n a) n inb).emb y)

/-- A block as large as its array is the array. -/
theorem whole_place {T : Shape} (x : Fin T.rank → ℕ) (inb : ∀ a, x a * T.size a + T.size a ≤ T.size a) (y : T.Idx) :
    (Rect.unit (fun a => x a * T.size a) T.size inb).emb y = y :=
  funext fun a => Fin.ext (by have := inb a; show x a * T.size a + 1 * (y a).val = (y a).val; omega)

/-- Row `p` of block `T` of 10000 rows is row `10000·T + p`. -/
theorem rows_place (T : Fin 10) {x : Fin 2 → ℕ} (h : x = ![T.val, 0]) (inb) (p : Fin 10000) (q : Fin 128) :
    (Rect.unit (s := S100000x128) (fun a => x a * S10000x128.size a) S10000x128.size inb).emb (ix2 p q)
      = ix2 (rowOf (B := 10) (R := 10000) (by decide) T p) q := by
  subst h
  exact Shape.idx_ext₂ (by show T.val * 10000 + 1 * p.val = 10000 * T.val + p.val; omega)
    (by show 0 * 128 + 1 * q.val = q.val; omega)

/-- Block `T` of the per-block sums is their row `T`. -/
theorem out_place (T : Fin 10) {x : Fin 3 → ℕ} (h : x = ![T.val, 0, 0]) (inb) (u v : Fin 1) (q : Fin 128) :
    (Rect.unit (s := S10x1x128) (fun a => x a * S1x1x128.size a) S1x1x128.size inb).emb (ix3 u v q) = ix3 T v q := by
  subst h
  refine funext fun a => Fin.ext ?_
  match a with
  | ⟨0, _⟩ => show T.val * 1 + 1 * u.val = T.val; omega
  | ⟨1, _⟩ => show 0 * 1 + 1 * v.val = v.val; omega
  | ⟨2, _⟩ => show 0 * 128 + 1 * q.val = q.val; omega

/-- From the windows' block indices alone, what a point leaves is block `T` of the blocks' sums of squares. -/
theorem squares_block (A : Nodes.Idx → EReal) (M : Row.Idx → EReal) (T : Fin 10) {x0 x1 : Fin 2 → ℕ} {x2 : Fin 3 → ℕ}
    (h0 : x0 = ![T.val, 0]) (h2 : x2 = ![T.val, 0, 0]) (i0 i1 i2) :
    out1_2 (F := Ideal) (sub A S10000x128.size x0 i0) (sub M S1x128.size x1 i1)
      = sub (rowBlockSquares (B := 10) (R := 10000) (by decide) A M) S1x1x128.size x2 i2 := by
  unfold out1_2
  rw [View.canon_unit_zero zeros3, View.ld_unit_zero zeros2, View.ld_unit_zero zeros2]
  funext j
  obtain ⟨u, v, q, rfl⟩ : ∃ u v q, j = ix3 u v q := ⟨_, _, _, eq_ix3 j⟩
  exact (pay_eq A M T (sub A _ x0 i0) (sub M _ x1 i1) (fun p q => congrArg A (rows_place T h0 i0 p q))
    (fun q => congrArg M (whole_place (T := S1x128) x1 i1 _)) u v q).trans (congrArg _ (out_place T h2 i2 u v q).symm)

/-- Every index of the per-block sums lies in the block its first coordinate names. -/
theorem out_cover (i : S10x1x128.Idx) {x : Fin 3 → ℕ} (h : x = ![(i 0).val, 0, 0]) (inb) :
    i ∈ Finset.univ.map (Rect.unit (s := S10x1x128) (fun a => x a * S1x1x128.size a) S1x1x128.size inb).emb :=
  Finset.mem_map.mpr ⟨ix3 0 (i 1) (i 2), Finset.mem_univ _, (out_place (i 0) h inb 0 (i 1) (i 2)).trans (eq_ix3 i).symm⟩

/-- The block indices of the rows' window and of the output's; the three regions have the same index maps. -/
theorem idx : ∀ t : Fin cfg1.N,
    (win1_0.index t : Fin 2 → ℕ) = ![t.val, 0] ∧ (win1_2.index t : Fin 3 → ℕ) = ![t.val, 0, 0] :=
  (by decide +kernel : ∀ t : Fin grid1.N, _)

end Stats

theorem squares1 (c : Dev nD) :
    (dat1 (F := Ideal) V c).arrAt 2 cfg1.N
      = Cert.Sage.rowBlockSquares (B := 10) (R := 10000) (by decide) (V c main_v58_0) (V c main_v61) :=
  (dat1 (F := Ideal) V c).arrAt_eq_of_cover 2 _
    (fun t _ => (congrArg ((cfg1.win 2).cut (grid1.coords t)) (after1_2 V c t)).trans
      (Stats.squares_block (V c main_v58_0) (V c main_v61) ⟨t, t.isLt.trans_eq N_1⟩ (Stats.idx t).1 (Stats.idx t).2 _ _ _))
    fun i => ⟨⟨i 0, (i 0).isLt.trans_eq N_1.symm⟩, flush1_2 _, Stats.out_cover i (Stats.idx _).2 _⟩

theorem squares4 (c : Dev nD) :
    (dat4 (F := Ideal) V c).arrAt 2 cfg4.N
      = Cert.Sage.rowBlockSquares (B := 10) (R := 10000) (by decide) (V c main_v103_0) (V c main_v106) :=
  (dat4 (F := Ideal) V c).arrAt_eq_of_cover 2 _
    (fun t _ => (congrArg ((cfg4.win 2).cut (grid4.coords t)) (after4_2 V c t)).trans
      (Stats.squares_block (V c main_v103_0) (V c main_v106) ⟨t, t.isLt.trans_eq N_4⟩ (Stats.idx t).1 (Stats.idx t).2 _ _ _))
    fun i => ⟨⟨i 0, (i 0).isLt.trans_eq N_4.symm⟩, flush4_2 _, Stats.out_cover i (Stats.idx _).2 _⟩

theorem squares7 (c : Dev nD) :
    (dat7 (F := Ideal) V c).arrAt 2 cfg7.N
      = Cert.Sage.rowBlockSquares (B := 10) (R := 10000) (by decide) (V c main_v148_0) (V c main_v151) :=
  (dat7 (F := Ideal) V c).arrAt_eq_of_cover 2 _
    (fun t _ => (congrArg ((cfg7.win 2).cut (grid7.coords t)) (after7_2 V c t)).trans
      (Stats.squares_block (V c main_v148_0) (V c main_v151) ⟨t, t.isLt.trans_eq N_7⟩ (Stats.idx t).1 (Stats.idx t).2 _ _ _))
    fun i => ⟨⟨i 0, (i 0).isLt.trans_eq N_7.symm⟩, flush7_2 _, Stats.out_cover i (Stats.idx _).2 _⟩

end Cert.KernelIdeal.RegionValue

end
-- ==== Proof.NormValue.lean ====
import proofs.«429645_j52570399703510_2_alg».proof.Proof.Gen.KernelIdeal.Frame
import proofs.«429645_j52570399703510_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

namespace Norm

open Cert.Sage

theorem zeros2 : (![0, 0] : Fin 2 → ℕ) = fun _ => 0 := funext fun a => by fin_cases a <;> rfl

/-- When row `p` of the block is row `n` of `A` and the four rows are held whole, the payload is the normalisation. -/
theorem pay_eq (A : Nodes.Idx → EReal) (M W G B : Row.Idx → EReal) (x0 : Vec Ideal S10000x128 .f32)
    (x1 x2 x3 x4 : Vec Ideal S1x128 .f32) (n : Fin 100000) (p : Fin 10000) (q : Fin 128)
    (h0 : x0 (ix2 p q) = A (ix2 n q)) (h1 : x1 (ix2 0 q) = M (ix2 0 q)) (h2 : x2 (ix2 0 q) = W (ix2 0 q))
    (h3 : x3 (ix2 0 q) = G (ix2 0 q)) (h4 : x4 (ix2 0 q) = B (ix2 0 q)) :
    k2_pay1 (F := Ideal) x0 x1 x2 x3 x4 (ix2 p q) = normRows A M W G B (ix2 n q) := by
  have e : k2_pay1 (F := Ideal) x0 x1 x2 x3 x4 (ix2 p q) = Ideal.div (x3 (ix2 0 q) * (x0 (ix2 p q) - x1 (ix2 0 q)))
      (Ideal.sqrt (x2 (ix2 0 q) + epsWord)) + x4 (ix2 0 q) := by
    unfold k2_pay1
    simp only [shapeCast_self, addf_apply, divf_apply, mulf_apply, subf_apply, broadcastTo_1b_ab_apply]
    rfl
  rw [e, h0, h1, h2, h3, h4]
  rfl

/-- The block of `X` at block index `x`, for blocks of sizes `n`. -/
abbrev sub {α : Type} {T : Shape} (X : T.Idx → α) (n x : Fin T.rank → ℕ) (inb : ∀ a, x a * n a + n a ≤ T.size a) :
    (⟨T.rank, n⟩ : Shape).Idx → α := fun y => X ((Rect.unit (fun a => x a * n a) n inb).emb y)

/-- A block as large as its array is the array. -/
theorem whole_place {T : Shape} (x : Fin T.rank → ℕ) (inb : ∀ a, x a * T.size a + T.size a ≤ T.size a) (y : T.Idx) :
    (Rect.unit (fun a => x a * T.size a) T.size inb).emb y = y :=
  funext fun a => Fin.ext (by have := inb a; show x a * T.size a + 1 * (y a).val = (y a).val; omega)

/-- Row `p` of block `T` of 10000 rows is row `10000·T + p`. -/
theorem rows_place (T : Fin 10) {x : Fin 2 → ℕ} (h : x = ![T.val, 0]) (inb) (p : Fin 10000) (q : Fin 128) :
    (Rect.unit (s := S100000x128) (fun a => x a * S10000x128.size a) S10000x128.size inb).emb (ix2 p q)
      = ix2 (rowOf (B := 10) (R := 10000) (by decide) T p) q := by
  subst h
  exact Shape.idx_ext₂ (by show T.val * 10000 + 1 * p.val = 10000 * T.val + p.val; omega)
    (by show 0 * 128 + 1 * q.val = q.val; omega)

/-- From the windows' block indices alone, what a point leaves is block `T` of the normalised rows. -/
theorem norm_block (A : Nodes.Idx → EReal) (M W G B : Row.Idx → EReal) (T : Fin 10) {x0 x1 x2 x3 x4 x5 : Fin 2 → ℕ}
    (h0 : x0 = ![T.val, 0]) (h5 : x5 = ![T.val, 0]) (i0 i1 i2 i3 i4 i5) :
    out2_5 (F := Ideal) (sub A S10000x128.size x0 i0) (sub M S1x128.size x1 i1) (sub W S1x128.size x2 i2)
        (sub G S1x128.size x3 i3) (sub B S1x128.size x4 i4)
      = sub (normRows A M W G B) S10000x128.size x5 i5 := by
  unfold out2_5
  rw [View.canon_unit_zero zeros2, View.ld_unit_zero zeros2, View.ld_unit_zero zeros2, View.ld_unit_zero zeros2,
    View.ld_unit_zero zeros2, View.ld_unit_zero zeros2]
  funext j
  obtain ⟨p, q, rfl⟩ : ∃ p q, j = ix2 p q := ⟨_, _, eq_ix2 j⟩
  exact (pay_eq A M W G B (sub A _ x0 i0) (sub M _ x1 i1) (sub W _ x2 i2) (sub G _ x3 i3) (sub B _ x4 i4) _ p q
    (congrArg A (rows_place T h0 i0 p q)) (congrArg M (whole_place (T := S1x128) x1 i1 _))
    (congrArg W (whole_place (T := S1x128) x2 i2 _)) (congrArg G (whole_place (T := S1x128) x3 i3 _))
    (congrArg B (whole_place (T := S1x128) x4 i4 _))).trans (congrArg _ (rows_place T h5 i5 p q).symm)

/-- The block of 10000 rows a row lies in. -/
def blockOf (i : S100000x128.Idx) : Fin 10 := ⟨(i 0).val / 10000, Nat.div_lt_of_lt_mul (i 0).isLt⟩

/-- Every index of the node array lies in the block of rows `row / 10000`. -/
theorem rows_cover (i : S100000x128.Idx) {x : Fin 2 → ℕ} (h : x = ![(blockOf i).val, 0]) (inb) :
    i ∈ Finset.univ.map (Rect.unit (s := S100000x128) (fun a => x a * S10000x128.size a) S10000x128.size inb).emb :=
  Finset.mem_map.mpr ⟨ix2 ⟨(i 0).val % 10000, Nat.mod_lt _ (by decide)⟩ (i 1), Finset.mem_univ _,
    (rows_place (blockOf i) h inb _ _).trans (Shape.idx_ext₂ (Nat.div_add_mod _ _) rfl)⟩

/-- The block indices of the rows' window and of the output's; the three regions have the same index maps. -/
theorem idx : ∀ t : Fin cfg2.N,
    (win2_0.index t : Fin 2 → ℕ) = ![t.val, 0] ∧ (win2_5.index t : Fin 2 → ℕ) = ![t.val, 0] :=
  (by decide +kernel : ∀ t : Fin grid2.N, _)

end Norm

theorem norm2 (c : Dev nD) :
    (dat2 (F := Ideal) V c).arrAt 5 cfg2.N
      = Cert.Sage.normRows (V c main_v58_0) (V c main_v61) (V c main_v65) (V c main_v68) (V c main_v71) :=
  (dat2 (F := Ideal) V c).arrAt_eq_of_cover 5 _
    (fun t _ => (congrArg ((cfg2.win 5).cut (grid2.coords t)) (after2_5 V c t)).trans
      (Norm.norm_block (V c main_v58_0) (V c main_v61) (V c main_v65) (V c main_v68) (V c main_v71) ⟨t, t.isLt.trans_eq N_2⟩
        (Norm.idx t).1 (Norm.idx t).2 _ _ _ _ _ _))
    fun i => ⟨⟨Norm.blockOf i, (Norm.blockOf i).isLt.trans_eq N_2.symm⟩, flush2_5 _,
      Norm.rows_cover i (Norm.idx _).2 _⟩

theorem norm5 (c : Dev nD) :
    (dat5 (F := Ideal) V c).arrAt 5 cfg5.N
      = Cert.Sage.normRows (V c main_v103_0) (V c main_v106) (V c main_v110) (V c main_v113) (V c main_v116) :=
  (dat5 (F := Ideal) V c).arrAt_eq_of_cover 5 _
    (fun t _ => (congrArg ((cfg5.win 5).cut (grid5.coords t)) (after5_5 V c t)).trans
      (Norm.norm_block (V c main_v103_0) (V c main_v106) (V c main_v110) (V c main_v113) (V c main_v116) ⟨t, t.isLt.trans_eq N_5⟩
        (Norm.idx t).1 (Norm.idx t).2 _ _ _ _ _ _))
    fun i => ⟨⟨Norm.blockOf i, (Norm.blockOf i).isLt.trans_eq N_5.symm⟩, flush5_5 _,
      Norm.rows_cover i (Norm.idx _).2 _⟩

theorem norm8 (c : Dev nD) :
    (dat8 (F := Ideal) V c).arrAt 5 cfg8.N
      = Cert.Sage.normRows (V c main_v148_0) (V c main_v151) (V c main_v155) (V c main_v158) (V c main_v161) :=
  (dat8 (F := Ideal) V c).arrAt_eq_of_cover 5 _
    (fun t _ => (congrArg ((cfg8.win 5).cut (grid8.coords t)) (after8_5 V c t)).trans
      (Norm.norm_block (V c main_v148_0) (V c main_v151) (V c main_v155) (V c main_v158) (V c main_v161) ⟨t, t.isLt.trans_eq N_8⟩
        (Norm.idx t).1 (Norm.idx t).2 _ _ _ _ _ _))
    fun i => ⟨⟨Norm.blockOf i, (Norm.blockOf i).isLt.trans_eq N_8.symm⟩, flush8_5 _,
      Norm.rows_cover i (Norm.idx _).2 _⟩

end Cert.KernelIdeal.RegionValue

end
-- ==== Proof.KernelEntry.lean ====
import proofs.«429645_j52570399703510_2_alg».proof.Proof.Gen.KernelIdeal.Frame
import proofs.«429645_j52570399703510_2_alg».proof.Proof.Network
import Idealize.ShloMosaic.Lib.StableHlo.Run
import Idealize.ShloMosaic.Lib.Pipeline.Value
import Idealize.ShloMosaic.Lib.ValueIdx
import Idealize.ShloMosaic.Lib.ValueLayout

set_option maxRecDepth 16384
set_option Elab.async false

noncomputable section

namespace Cert.KernelIdeal.Layers

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Contents carried to a buffer's own type and back are the contents. -/
theorem ofBuf_toBuf {T : BufTy} (x : StableHlo.TRef sig T) (v : T.Contents (Elt Ideal)) : x.ofBuf (x.toBuf v) = v := by
  rcases x with ⟨r, rfl, _, _⟩
  rfl

/-- Row `l` of a stacked weight table, its unit axis dropped: the slice keeps the leading coordinate `l`, the reshape the other three. -/
theorem sliceW (l : Fin 3) (a : Vec Ideal S3x3x128x128 .f32) (hs : S3x3x128x128.Slices ![l.val, 0, 0, 0] S1x3x128x128)
    (hc : S1x3x128x128.ShapeCasts S3x128x128) :
    shapeCast S3x128x128 (extractStridedSlice S1x3x128x128 ![l.val, 0, 0, 0] a hs) hc = Cert.Sage.weightsOf a l := by
  funext i
  refine (shapeCast_dropUnit_apply ![3, 128, 128] _ hc i).trans ?_
  exact extractStridedSlice_apply _ a hs _ (ix4 l (i 0) (i 1) (i 2)) fun d => match d with
    | ⟨0, _⟩ => rfl
    | ⟨1, _⟩ => (Nat.zero_add _).symm
    | ⟨2, _⟩ => (Nat.zero_add _).symm
    | ⟨3, _⟩ => (Nat.zero_add _).symm

/-- Row `l` of the stacked bias table, its unit axis dropped. -/
theorem sliceB (l : Fin 3) (a : Vec Ideal S3x3x128 .f32) (hs : S3x3x128.Slices ![l.val, 0, 0] S1x3x128) (hc : S1x3x128.ShapeCasts S3x128) :
    shapeCast S3x128 (extractStridedSlice S1x3x128 ![l.val, 0, 0] a hs) hc = Cert.Sage.biasOf a l := by
  funext i
  refine (shapeCast_dropUnit_apply ![3, 128] _ hc i).trans ?_
  exact extractStridedSlice_apply _ a hs _ (ix3 l (i 0) (i 1)) fun d => match d with
    | ⟨0, _⟩ => rfl
    | ⟨1, _⟩ => (Nat.zero_add _).symm
    | ⟨2, _⟩ => (Nat.zero_add _).symm

theorem feat0 (c : Dev nD) : W13 (F := Ideal) m ρ c (Proc.devRef .tc main_arg0) = m ((c : Thread nD τ).loc main_arg0) := by
  after_results_simp

theorem nsum0_0 (c : Dev nD) :
    W13 (F := Ideal) m ρ c (Proc.devRef .tc main_v35)
      = Terms.neighbourSum (Terms.takeMasked (m ((c : Thread nD τ).loc main_arg0)) (Terms.edgeRow0 (m ((c : Thread nD τ).loc main_arg1)))) (Terms.edgeRow0 (m ((c : Thread nD τ).loc main_arg2))) := by
  after_results_simp; simp only [ofBuf_toBuf]; dsimp only [StableHlo.TRef.ofBuf, StableHlo.TRef.toBuf, cast_eq, id]; rfl

theorem recip0_0 (c : Dev nD) :
    W13 (F := Ideal) m ρ c (Proc.devRef .tc main_v21) = Terms.recipDegree (Terms.edgeRow0 (m ((c : Thread nD τ).loc main_arg2))) := by
  dsimp only [W13, W12, W11, W10, W9, W8, W7, W6, W5, W4, W3]
  generalize hV : W2 (F := Ideal) m ρ c = V
  after_results_simp
  subst hV
  dsimp only [W2]
  generalize hV : W1 (F := Ideal) m ρ c = V
  after_results_simp; simp only [ofBuf_toBuf]; dsimp only [StableHlo.TRef.ofBuf, StableHlo.TRef.toBuf, cast_eq, id]
  subst hV
  after_results_simp; rfl

theorem nsum0_1 (c : Dev nD) :
    W13 (F := Ideal) m ρ c (Proc.devRef .tc main_v43)
      = Terms.neighbourSum (Terms.takeMasked (m ((c : Thread nD τ).loc main_arg0)) (Terms.edgeRow1 (m ((c : Thread nD τ).loc main_arg1)))) (Terms.edgeRow1 (m ((c : Thread nD τ).loc main_arg2))) := by
  after_results_simp; simp only [ofBuf_toBuf]; dsimp only [StableHlo.TRef.ofBuf, StableHlo.TRef.toBuf, cast_eq, id]; rfl

theorem recip0_1 (c : Dev nD) :
    W13 (F := Ideal) m ρ c (Proc.devRef .tc main_v24) = Terms.recipDegree (Terms.edgeRow1 (m ((c : Thread nD τ).loc main_arg2))) := by
  dsimp only [W13, W12, W11, W10, W9, W8, W7, W6, W5]
  generalize hV : W4 (F := Ideal) m ρ c = V
  after_results_simp
  subst hV
  dsimp only [W4]
  generalize hV : W3 (F := Ideal) m ρ c = V
  after_results_simp; simp only [ofBuf_toBuf]; dsimp only [StableHlo.TRef.ofBuf, StableHlo.TRef.toBuf, cast_eq, id]
  subst hV
  after_results_simp; rfl

theorem nsum0_2 (c : Dev nD) :
    W13 (F := Ideal) m ρ c (Proc.devRef .tc main_v51)
      = Terms.neighbourSum (Terms.takeMasked (m ((c : Thread nD τ).loc main_arg0)) (Terms.edgeRow2 (m ((c : Thread nD τ).loc main_arg1)))) (Terms.edgeRow2 (m ((c : Thread nD τ).loc main_arg2))) := by
  after_results_simp; simp only [ofBuf_toBuf]; dsimp only [StableHlo.TRef.ofBuf, StableHlo.TRef.toBuf, cast_eq, id]; rfl

theorem recip0_2 (c : Dev nD) :
    W13 (F := Ideal) m ρ c (Proc.devRef .tc main_v27) = Terms.recipDegree (Terms.edgeRow2 (m ((c : Thread nD τ).loc main_arg2))) := by
  dsimp only [W13, W12, W11, W10, W9, W8, W7]
  generalize hV : W6 (F := Ideal) m ρ c = V
  after_results_simp
  subst hV
  dsimp only [W6]
  generalize hV : W5 (F := Ideal) m ρ c = V
  after_results_simp; simp only [ofBuf_toBuf]; dsimp only [StableHlo.TRef.ofBuf, StableHlo.TRef.toBuf, cast_eq, id]
  subst hV
  after_results_simp; rfl

theorem wself0 (c : Dev nD) : W13 (F := Ideal) m ρ c (Proc.devRef .tc main_v53) = Cert.Sage.weightsOf (m ((c : Thread nD τ).loc main_arg3)) 0 := by
  after_results_simp; exact sliceW 0 _ _ _
theorem wneigh0 (c : Dev nD) : W13 (F := Ideal) m ρ c (Proc.devRef .tc main_v55) = Cert.Sage.weightsOf (m ((c : Thread nD τ).loc main_arg4)) 0 := by
  after_results_simp; exact sliceW 0 _ _ _
theorem bias0 (c : Dev nD) : W13 (F := Ideal) m ρ c (Proc.devRef .tc main_v57) = Cert.Sage.biasOf (m ((c : Thread nD τ).loc main_arg5)) 0 := by
  after_results_simp; exact sliceB 0 _ _ _

/-- Across layer 0's two later regions and the host stretches before them, for a buffer none of them writes. -/
theorem W18_eq_W14 (c : Dev nD) (b : Ref sig .tc) (h1 : ∀ w, Pipeline.arrRef spec1 w ≠ b) (h2 : ∀ w, Pipeline.arrRef spec2 w ≠ b)
    (k1 : ∀ V : Valuation τ sig (Elt Ideal), StableHlo.after hostOps1 V (Proc.devRef .tc b) = V (Proc.devRef .tc b))
    (k2 : ∀ V : Valuation τ sig (Elt Ideal), StableHlo.after hostOps2 V (Proc.devRef .tc b) = V (Proc.devRef .tc b)) :
    W18 (F := Ideal) m ρ c (Proc.devRef .tc b) = W14 (F := Ideal) m ρ c (Proc.devRef .tc b) :=
  (W18_of_ne m ρ c b h2).trans <| (k2 _).trans <| (W16_of_ne m ρ c b h1).trans (k1 _)

/-- The same across layer 1's. -/
theorem W30_eq_W26 (c : Dev nD) (b : Ref sig .tc) (h1 : ∀ w, Pipeline.arrRef spec4 w ≠ b) (h2 : ∀ w, Pipeline.arrRef spec5 w ≠ b)
    (k1 : ∀ V : Valuation τ sig (Elt Ideal), StableHlo.after hostOps4 V (Proc.devRef .tc b) = V (Proc.devRef .tc b))
    (k2 : ∀ V : Valuation τ sig (Elt Ideal), StableHlo.after hostOps5 V (Proc.devRef .tc b) = V (Proc.devRef .tc b)) :
    W30 (F := Ideal) m ρ c (Proc.devRef .tc b) = W26 (F := Ideal) m ρ c (Proc.devRef .tc b) :=
  (W30_of_ne m ρ c b h2).trans <| (k2 _).trans <| (W28_of_ne m ρ c b h1).trans (k1 _)

/-- A convolution region leaves an input window's array as it found it. -/
theorem W14_in (c : Dev nD) (w : Fin 12) (hw : (cfg0.win w).isOut = false) :
    W14 (F := Ideal) m ρ c (Proc.devRef .tc (Pipeline.arrRef spec0 w)) = W13 (F := Ideal) m ρ c (Proc.devRef .tc (Pipeline.arrRef spec0 w)) :=
  (W14_arr m ρ c w).trans (((dat0 (V13 m ρ) c).arrAt_in w hw _).trans (A_eq0 (V13 m ρ) c w))
theorem W26_in (c : Dev nD) (w : Fin 12) (hw : (cfg3.win w).isOut = false) :
    W26 (F := Ideal) m ρ c (Proc.devRef .tc (Pipeline.arrRef spec3 w)) = W25 (F := Ideal) m ρ c (Proc.devRef .tc (Pipeline.arrRef spec3 w)) :=
  (W26_arr m ρ c w).trans (((dat3 (V25 m ρ) c).arrAt_in w hw _).trans (A_eq3 (V25 m ρ) c w))

theorem arg1_W18 (c : Dev nD) : W18 (F := Ideal) m ρ c (Proc.devRef .tc main_arg1) = m ((c : Thread nD τ).loc main_arg1) :=
  (W18_eq_W14 m ρ c main_arg1 (by decide) (by decide) (fun V => by after_results_simp) (fun V => by after_results_simp)).trans <|
    (W14_of_ne m ρ c main_arg1 (by decide)).trans (by after_results_simp)
theorem arg1_W30 (c : Dev nD) : W30 (F := Ideal) m ρ c (Proc.devRef .tc main_arg1) = m ((c : Thread nD τ).loc main_arg1) :=
  (W30_eq_W26 m ρ c main_arg1 (by decide) (by decide) (fun V => by after_results_simp) (fun V => by after_results_simp)).trans <|
    (W26_of_ne m ρ c main_arg1 (by decide)).trans <| (show W25 (F := Ideal) m ρ c (Proc.devRef .tc main_arg1) = W18 (F := Ideal) m ρ c (Proc.devRef .tc main_arg1) by after_results_simp).trans (arg1_W18 m ρ c)
theorem arg2_W18 (c : Dev nD) : W18 (F := Ideal) m ρ c (Proc.devRef .tc main_arg2) = m ((c : Thread nD τ).loc main_arg2) :=
  (W18_eq_W14 m ρ c main_arg2 (by decide) (by decide) (fun V => by after_results_simp) (fun V => by after_results_simp)).trans <|
    (W14_of_ne m ρ c main_arg2 (by decide)).trans (by after_results_simp)
theorem arg2_W30 (c : Dev nD) : W30 (F := Ideal) m ρ c (Proc.devRef .tc main_arg2) = m ((c : Thread nD τ).loc main_arg2) :=
  (W30_eq_W26 m ρ c main_arg2 (by decide) (by decide) (fun V => by after_results_simp) (fun V => by after_results_simp)).trans <|
    (W26_of_ne m ρ c main_arg2 (by decide)).trans <| (show W25 (F := Ideal) m ρ c (Proc.devRef .tc main_arg2) = W18 (F := Ideal) m ρ c (Proc.devRef .tc main_arg2) by after_results_simp).trans (arg2_W18 m ρ c)
theorem arg3_W18 (c : Dev nD) : W18 (F := Ideal) m ρ c (Proc.devRef .tc main_arg3) = m ((c : Thread nD τ).loc main_arg3) :=
  (W18_eq_W14 m ρ c main_arg3 (by decide) (by decide) (fun V => by after_results_simp) (fun V => by after_results_simp)).trans <|
    (W14_of_ne m ρ c main_arg3 (by decide)).trans (by after_results_simp)
theorem arg3_W30 (c : Dev nD) : W30 (F := Ideal) m ρ c (Proc.devRef .tc main_arg3) = m ((c : Thread nD τ).loc main_arg3) :=
  (W30_eq_W26 m ρ c main_arg3 (by decide) (by decide) (fun V => by after_results_simp) (fun V => by after_results_simp)).trans <|
    (W26_of_ne m ρ c main_arg3 (by decide)).trans <| (show W25 (F := Ideal) m ρ c (Proc.devRef .tc main_arg3) = W18 (F := Ideal) m ρ c (Proc.devRef .tc main_arg3) by after_results_simp).trans (arg3_W18 m ρ c)
theorem arg4_W18 (c : Dev nD) : W18 (F := Ideal) m ρ c (Proc.devRef .tc main_arg4) = m ((c : Thread nD τ).loc main_arg4) :=
  (W18_eq_W14 m ρ c main_arg4 (by decide) (by decide) (fun V => by after_results_simp) (fun V => by after_results_simp)).trans <|
    (W14_of_ne m ρ c main_arg4 (by decide)).trans (by after_results_simp)
theorem arg4_W30 (c : Dev nD) : W30 (F := Ideal) m ρ c (Proc.devRef .tc main_arg4) = m ((c : Thread nD τ).loc main_arg4) :=
  (W30_eq_W26 m ρ c main_arg4 (by decide) (by decide) (fun V => by after_results_simp) (fun V => by after_results_simp)).trans <|
    (W26_of_ne m ρ c main_arg4 (by decide)).trans <| (show W25 (F := Ideal) m ρ c (Proc.devRef .tc main_arg4) = W18 (F := Ideal) m ρ c (Proc.devRef .tc main_arg4) by after_results_simp).trans (arg4_W18 m ρ c)
theorem arg5_W18 (c : Dev nD) : W18 (F := Ideal) m ρ c (Proc.devRef .tc main_arg5) = m ((c : Thread nD τ).loc main_arg5) :=
  (W18_eq_W14 m ρ c main_arg5 (by decide) (by decide) (fun V => by after_results_simp) (fun V => by after_results_simp)).trans <|
    (W14_of_ne m ρ c main_arg5 (by decide)).trans (by after_results_simp)
theorem arg5_W30 (c : Dev nD) : W30 (F := Ideal) m ρ c (Proc.devRef .tc main_arg5) = m ((c : Thread nD τ).loc main_arg5) :=
  (W30_eq_W26 m ρ c main_arg5 (by decide) (by decide) (fun V => by after_results_simp) (fun V => by after_results_simp)).trans <|
    (W26_of_ne m ρ c main_arg5 (by decide)).trans <| (show W25 (F := Ideal) m ρ c (Proc.devRef .tc main_arg5) = W18 (F := Ideal) m ρ c (Proc.devRef .tc main_arg5) by after_results_simp).trans (arg5_W18 m ρ c)

theorem feat1 (c : Dev nD) : W25 (F := Ideal) m ρ c (Proc.devRef .tc main_v72) = W18 (F := Ideal) m ρ c (Proc.devRef .tc main_v72) := by
  after_results_simp

theorem nsum1_0 (c : Dev nD) :
    W25 (F := Ideal) m ρ c (Proc.devRef .tc main_v80)
      = Terms.neighbourSum (Terms.takeMasked (W18 (F := Ideal) m ρ c (Proc.devRef .tc main_v72)) (Terms.edgeRow0 (m ((c : Thread nD τ).loc main_arg1)))) (Terms.edgeRow0 (m ((c : Thread nD τ).loc main_arg2))) := by
  rw [← arg1_W18 m ρ c, ← arg2_W18 m ρ c]
  after_results_simp; simp only [ofBuf_toBuf]; dsimp only [StableHlo.TRef.ofBuf, StableHlo.TRef.toBuf, cast_eq, id]; rfl

theorem recip1_0 (c : Dev nD) :
    W25 (F := Ideal) m ρ c (Proc.devRef .tc main_v21) = Terms.recipDegree (Terms.edgeRow0 (m ((c : Thread nD τ).loc main_arg2))) :=
  (show W25 (F := Ideal) m ρ c (Proc.devRef .tc main_v21) = W18 (F := Ideal) m ρ c (Proc.devRef .tc main_v21) by after_results_simp).trans <|
    (W18_eq_W14 m ρ c main_v21 (by decide) (by decide) (fun V => by after_results_simp) (fun V => by after_results_simp)).trans <| (W14_in m ρ c 4 rfl).trans (recip0_0 m ρ c)

theorem nsum1_1 (c : Dev nD) :
    W25 (F := Ideal) m ρ c (Proc.devRef .tc main_v88)
      = Terms.neighbourSum (Terms.takeMasked (W18 (F := Ideal) m ρ c (Proc.devRef .tc main_v72)) (Terms.edgeRow1 (m ((c : Thread nD τ).loc main_arg1)))) (Terms.edgeRow1 (m ((c : Thread nD τ).loc main_arg2))) := by
  rw [← arg1_W18 m ρ c, ← arg2_W18 m ρ c]
  after_results_simp; simp only [ofBuf_toBuf]; dsimp only [StableHlo.TRef.ofBuf, StableHlo.TRef.toBuf, cast_eq, id]; rfl

theorem recip1_1 (c : Dev nD) :
    W25 (F := Ideal) m ρ c (Proc.devRef .tc main_v24) = Terms.recipDegree (Terms.edgeRow1 (m ((c : Thread nD τ).loc main_arg2))) :=
  (show W25 (F := Ideal) m ρ c (Proc.devRef .tc main_v24) = W18 (F := Ideal) m ρ c (Proc.devRef .tc main_v24) by after_results_simp).trans <|
    (W18_eq_W14 m ρ c main_v24 (by decide) (by decide) (fun V => by after_results_simp) (fun V => by after_results_simp)).trans <| (W14_in m ρ c 5 rfl).trans (recip0_1 m ρ c)

theorem nsum1_2 (c : Dev nD) :
    W25 (F := Ideal) m ρ c (Proc.devRef .tc main_v96)
      = Terms.neighbourSum (Terms.takeMasked (W18 (F := Ideal) m ρ c (Proc.devRef .tc main_v72)) (Terms.edgeRow2 (m ((c : Thread nD τ).loc main_arg1)))) (Terms.edgeRow2 (m ((c : Thread nD τ).loc main_arg2))) := by
  rw [← arg1_W18 m ρ c, ← arg2_W18 m ρ c]
  after_results_simp; simp only [ofBuf_toBuf]; dsimp only [StableHlo.TRef.ofBuf, StableHlo.TRef.toBuf, cast_eq, id]; rfl

theorem recip1_2 (c : Dev nD) :
    W25 (F := Ideal) m ρ c (Proc.devRef .tc main_v27) = Terms.recipDegree (Terms.edgeRow2 (m ((c : Thread nD τ).loc main_arg2))) :=
  (show W25 (F := Ideal) m ρ c (Proc.devRef .tc main_v27) = W18 (F := Ideal) m ρ c (Proc.devRef .tc main_v27) by after_results_simp).trans <|
    (W18_eq_W14 m ρ c main_v27 (by decide) (by decide) (fun V => by after_results_simp) (fun V => by after_results_simp)).trans <| (W14_in m ρ c 6 rfl).trans (recip0_2 m ρ c)

theorem wself1 (c : Dev nD) : W25 (F := Ideal) m ρ c (Proc.devRef .tc main_v98) = Cert.Sage.weightsOf (m ((c : Thread nD τ).loc main_arg3)) 1 := by
  rw [← arg3_W18 m ρ c]; after_results_simp; exact sliceW 1 _ _ _
theorem wneigh1 (c : Dev nD) : W25 (F := Ideal) m ρ c (Proc.devRef .tc main_v100) = Cert.Sage.weightsOf (m ((c : Thread nD τ).loc main_arg4)) 1 := by
  rw [← arg4_W18 m ρ c]; after_results_simp; exact sliceW 1 _ _ _
theorem bias1 (c : Dev nD) : W25 (F := Ideal) m ρ c (Proc.devRef .tc main_v102) = Cert.Sage.biasOf (m ((c : Thread nD τ).loc main_arg5)) 1 := by
  rw [← arg5_W18 m ρ c]; after_results_simp; exact sliceB 1 _ _ _

theorem feat2 (c : Dev nD) : W37 (F := Ideal) m ρ c (Proc.devRef .tc main_v117) = W30 (F := Ideal) m ρ c (Proc.devRef .tc main_v117) := by
  after_results_simp

theorem nsum2_0 (c : Dev nD) :
    W37 (F := Ideal) m ρ c (Proc.devRef .tc main_v125)
      = Terms.neighbourSum (Terms.takeMasked (W30 (F := Ideal) m ρ c (Proc.devRef .tc main_v117)) (Terms.edgeRow0 (m ((c : Thread nD τ).loc main_arg1)))) (Terms.edgeRow0 (m ((c : Thread nD τ).loc main_arg2))) := by
  rw [← arg1_W30 m ρ c, ← arg2_W30 m ρ c]
  after_results_simp; simp only [ofBuf_toBuf]; dsimp only [StableHlo.TRef.ofBuf, StableHlo.TRef.toBuf, cast_eq, id]; rfl

theorem recip2_0 (c : Dev nD) :
    W37 (F := Ideal) m ρ c (Proc.devRef .tc main_v21) = Terms.recipDegree (Terms.edgeRow0 (m ((c : Thread nD τ).loc main_arg2))) :=
  (show W37 (F := Ideal) m ρ c (Proc.devRef .tc main_v21) = W30 (F := Ideal) m ρ c (Proc.devRef .tc main_v21) by after_results_simp).trans <|
    (W30_eq_W26 m ρ c main_v21 (by decide) (by decide) (fun V => by after_results_simp) (fun V => by after_results_simp)).trans <| (W26_in m ρ c 4 rfl).trans (recip1_0 m ρ c)

theorem nsum2_1 (c : Dev nD) :
    W37 (F := Ideal) m ρ c (Proc.devRef .tc main_v133)
      = Terms.neighbourSum (Terms.takeMasked (W30 (F := Ideal) m ρ c (Proc.devRef .tc main_v117)) (Terms.edgeRow1 (m ((c : Thread nD τ).loc main_arg1)))) (Terms.edgeRow1 (m ((c : Thread nD τ).loc main_arg2))) := by
  rw [← arg1_W30 m ρ c, ← arg2_W30 m ρ c]
  after_results_simp; simp only [ofBuf_toBuf]; dsimp only [StableHlo.TRef.ofBuf, StableHlo.TRef.toBuf, cast_eq, id]; rfl

theorem recip2_1 (c : Dev nD) :
    W37 (F := Ideal) m ρ c (Proc.devRef .tc main_v24) = Terms.recipDegree (Terms.edgeRow1 (m ((c : Thread nD τ).loc main_arg2))) :=
  (show W37 (F := Ideal) m ρ c (Proc.devRef .tc main_v24) = W30 (F := Ideal) m ρ c (Proc.devRef .tc main_v24) by after_results_simp).trans <|
    (W30_eq_W26 m ρ c main_v24 (by decide) (by decide) (fun V => by after_results_simp) (fun V => by after_results_simp)).trans <| (W26_in m ρ c 5 rfl).trans (recip1_1 m ρ c)

theorem nsum2_2 (c : Dev nD) :
    W37 (F := Ideal) m ρ c (Proc.devRef .tc main_v141)
      = Terms.neighbourSum (Terms.takeMasked (W30 (F := Ideal) m ρ c (Proc.devRef .tc main_v117)) (Terms.edgeRow2 (m ((c : Thread nD τ).loc main_arg1)))) (Terms.edgeRow2 (m ((c : Thread nD τ).loc main_arg2))) := by
  rw [← arg1_W30 m ρ c, ← arg2_W30 m ρ c]
  after_results_simp; simp only [ofBuf_toBuf]; dsimp only [StableHlo.TRef.ofBuf, StableHlo.TRef.toBuf, cast_eq, id]; rfl

theorem recip2_2 (c : Dev nD) :
    W37 (F := Ideal) m ρ c (Proc.devRef .tc main_v27) = Terms.recipDegree (Terms.edgeRow2 (m ((c : Thread nD τ).loc main_arg2))) :=
  (show W37 (F := Ideal) m ρ c (Proc.devRef .tc main_v27) = W30 (F := Ideal) m ρ c (Proc.devRef .tc main_v27) by after_results_simp).trans <|
    (W30_eq_W26 m ρ c main_v27 (by decide) (by decide) (fun V => by after_results_simp) (fun V => by after_results_simp)).trans <| (W26_in m ρ c 6 rfl).trans (recip1_2 m ρ c)

theorem wself2 (c : Dev nD) : W37 (F := Ideal) m ρ c (Proc.devRef .tc main_v143) = Cert.Sage.weightsOf (m ((c : Thread nD τ).loc main_arg3)) 2 := by
  rw [← arg3_W30 m ρ c]; after_results_simp; exact sliceW 2 _ _ _
theorem wneigh2 (c : Dev nD) : W37 (F := Ideal) m ρ c (Proc.devRef .tc main_v145) = Cert.Sage.weightsOf (m ((c : Thread nD τ).loc main_arg4)) 2 := by
  rw [← arg4_W30 m ρ c]; after_results_simp; exact sliceW 2 _ _ _
theorem bias2 (c : Dev nD) : W37 (F := Ideal) m ρ c (Proc.devRef .tc main_v147) = Cert.Sage.biasOf (m ((c : Thread nD τ).loc main_arg5)) 2 := by
  rw [← arg5_W30 m ρ c]; after_results_simp; exact sliceB 2 _ _ _

end Cert.KernelIdeal.Layers

end
-- ==== Proof.KernelLayer.lean ====
import proofs.«429645_j52570399703510_2_alg».proof.Proof.Gen.KernelIdeal.Frame
import proofs.«429645_j52570399703510_2_alg».proof.Proof.Network
import proofs.«429645_j52570399703510_2_alg».proof.Proof.ConvValue
import proofs.«429645_j52570399703510_2_alg».proof.Proof.StatsValue
import proofs.«429645_j52570399703510_2_alg».proof.Proof.NormValue
import proofs.«429645_j52570399703510_2_alg».proof.Proof.KernelEntry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layers

open Cert.KernelIdeal Cert.KernelIdeal.Gen Idealize.ShloMosaic Idealize.ShloMosaic.TcCoe Idealize.SL.Sem
open Idealize.ShloMosaic.ValueIdx

theorem lift_block {B : Nat} (h : (Cert.Sage.Blocks B).Reduces [0] Cert.Sage.Row) (j : Cert.Sage.Row.Idx) (k : Fin B) :
    h.lift j k = ix3 k 0 (j 1) := by
  funext c
  apply Fin.ext
  match c with
  | ⟨0, _⟩ => rfl
  | ⟨1, _⟩ => exact Fin.val_eq_zero (j 0)
  | ⟨2, _⟩ => rfl

/-- The host's sum over the block axis, started from the zero word, divided by the number of nodes. -/
theorem mean_of_blocks_host {B : Nat} (x : Vec Ideal (Cert.Sage.Blocks B) .f32)
    (h' : (Cert.Sage.Blocks B).ReducesTo [0] S1x128) (h : (Cert.Sage.Blocks B).Reduces [0] S1x128) (h0 : 0 < S_.numel)
    (hb : S_.BroadcastsInDim S1x128 ![]) :
    Host.divf (Host.reduceAdd x (constant (F := Ideal) S_ .f32 0x00000000#32) h' h0)
        (broadcastInDim S1x128 ![] hb (constant (F := Ideal) S_ .f32 0x47C35000#32))
      = Cert.Sage.meanOfBlocks x := by
  funext i
  show Ideal.div (Ideal.hostReduceAdd h' x (Ideal.ofBits .f32 0x00000000#32) i) (Ideal.ofBits .f32 0x47C35000#32)
    = Ideal.div (∑ t : Fin B, x (ix3 t 0 (i 1))) Cert.Sage.nodesWord
  rw [Ideal.hostReduceAdd_single h' h, Ideal.ofBits_zero_f32, zero_add]
  exact congrArg (Ideal.div · Cert.Sage.nodesWord) (Finset.sum_congr rfl fun k _ => congrArg x (lift_block h i k))

/-- Row `l` of a [3, 128] table, cut out, flattened and laid out as a row again. -/
theorem row_host (l : Fin 3) (a : Vec Ideal S3x128 .f32) (hs : S3x128.Slices ![l.val, 0] S1x128) (hc : S1x128.ShapeCasts S128)
    (hb : S128.BroadcastsInDim S1x128 ![1]) :
    broadcastInDim S1x128 ![1] hb (shapeCast S128 (extractStridedSlice S1x128 ![l.val, 0] a hs) hc) = Cert.Sage.featRowOf a l := by
  funext i
  refine (broadcastInDim_apply _ hb _ i (ix1 (i 1)) (fun a => ?_)).trans ?_
  · match a with
    | ⟨0, _⟩ => rfl
  refine (shapeCast_1a_a_apply _ hc (i 1)).trans ?_
  exact slice2_axis0_apply l.val a hs 0 (i 1) l (Nat.add_zero _).symm

variable (m : (ℓ : Loc nD τ sig) → Buf (Elt Ideal) ℓ) (ρ : Dev nD → PrngReg)

/-- Layer `l`'s summed contributions over node features `h`. -/
def accKer (relu : Bool) (l : Fin 3) (h : Vec Ideal S100000x128 .f32) (c : Dev nD) : Cert.Sage.Nodes.Idx → EReal :=
  Cert.Sage.acc relu h
    (Cert.Sage.nbKer h (Terms.edgeRow0 (m ((c : Thread nD τ).loc main_arg1))) (Terms.edgeRow0 (m ((c : Thread nD τ).loc main_arg2))))
    (Cert.Sage.nbKer h (Terms.edgeRow1 (m ((c : Thread nD τ).loc main_arg1))) (Terms.edgeRow1 (m ((c : Thread nD τ).loc main_arg2))))
    (Cert.Sage.nbKer h (Terms.edgeRow2 (m ((c : Thread nD τ).loc main_arg1))) (Terms.edgeRow2 (m ((c : Thread nD τ).loc main_arg2))))
    (Cert.Sage.weightsOf (m ((c : Thread nD τ).loc main_arg3)) l) (Cert.Sage.weightsOf (m ((c : Thread nD τ).loc main_arg4)) l) (Cert.Sage.biasOf (m ((c : Thread nD τ).loc main_arg5)) l)

/-- A layer is its contributions, their mean and second moment taken block by block, and the normalisation. -/
theorem layerKer_of (relu : Bool) (l : Fin 3) (h : Vec Ideal S100000x128 .f32) (c : Dev nD)
    {A out : Cert.Sage.Nodes.Idx → EReal} {S : (Cert.Sage.Blocks 20).Idx → EReal} {Q : (Cert.Sage.Blocks 10).Idx → EReal}
    {Mu Var G B : Cert.Sage.Row.Idx → EReal}
    (hA : A = accKer m relu l h c) (hS : S = Cert.Sage.rowBlockSums (B := 20) (R := 5000) (by decide) A)
    (hMu : Mu = Cert.Sage.meanOfBlocks S) (hQ : Q = Cert.Sage.rowBlockSquares (B := 10) (R := 10000) (by decide) A Mu)
    (hV : Var = Cert.Sage.meanOfBlocks Q) (hG : G = Cert.Sage.featRowOf (m ((c : Thread nD τ).loc main_arg6)) l)
    (hB : B = Cert.Sage.featRowOf (m ((c : Thread nD τ).loc main_arg7)) l) (hN : out = Cert.Sage.normRows A Mu Var G B) :
    out = Cert.Sage.layerKer relu l h (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  subst hA hS hMu hQ hV hG hB hN
  rfl

local macro "host_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- Nothing after the last second-moment region writes the tables of scales and shifts. -/
theorem arg_W40 (x : Ref sig .tc) (hx : x = main_arg6 ∨ x = main_arg7) (c : Dev nD) :
    W40 (F := Ideal) m ρ c (Proc.devRef .tc x) = m ((c : Thread nD τ).loc x) := by
  have h : W40 (F := Ideal) m ρ c (Proc.devRef .tc x) = W42 (F := Ideal) m ρ c (Proc.devRef .tc x) := by
    rcases hx with rfl | rfl
    all_goals exact Eq.trans (Eq.symm (by host_keeps hostOps8)) (W42_of_ne (F := Ideal) m ρ c _ (by decide)).symm
  rcases hx with rfl | rfl
  · exact h.trans (W42_main_arg6 (F := Ideal) m ρ c)
  · exact h.trans (W42_main_arg7 (F := Ideal) m ρ c)

/-- … nor anything between the second and the third. -/
theorem arg_W28 (x : Ref sig .tc) (hx : x = main_arg6 ∨ x = main_arg7) (c : Dev nD) :
    W28 (F := Ideal) m ρ c (Proc.devRef .tc x) = m ((c : Thread nD τ).loc x) := by
  refine Eq.trans (Eq.symm ?_) (arg_W40 m ρ x hx c)
  rcases hx with rfl | rfl
  all_goals
    refine (W40_of_ne (F := Ideal) m ρ c _ (by decide)).trans ?_
    refine Eq.trans (by host_keeps hostOps7) ?_
    refine (W38_of_ne (F := Ideal) m ρ c _ (by decide)).trans ?_
    refine Eq.trans (by host_keeps hostOps6_6) ?_
    refine Eq.trans (by host_keeps hostOps6_5) ?_
    refine Eq.trans (by host_keeps hostOps6_4) ?_
    refine Eq.trans (by host_keeps hostOps6_3) ?_
    refine Eq.trans (by host_keeps hostOps6_2) ?_
    refine Eq.trans (by host_keeps hostOps6_1) ?_
    refine Eq.trans (by host_keeps hostOps6) ?_
    refine (W30_of_ne (F := Ideal) m ρ c _ (by decide)).trans ?_
    host_keeps hostOps5

/-- … nor between the first and the second. -/
theorem arg_W16 (x : Ref sig .tc) (hx : x = main_arg6 ∨ x = main_arg7) (c : Dev nD) :
    W16 (F := Ideal) m ρ c (Proc.devRef .tc x) = m ((c : Thread nD τ).loc x) := by
  refine Eq.trans (Eq.symm ?_) (arg_W28 m ρ x hx c)
  rcases hx with rfl | rfl
  all_goals
    refine (W28_of_ne (F := Ideal) m ρ c _ (by decide)).trans ?_
    refine Eq.trans (by host_keeps hostOps4) ?_
    refine (W26_of_ne (F := Ideal) m ρ c _ (by decide)).trans ?_
    refine Eq.trans (by host_keeps hostOps3_6) ?_
    refine Eq.trans (by host_keeps hostOps3_5) ?_
    refine Eq.trans (by host_keeps hostOps3_4) ?_
    refine Eq.trans (by host_keeps hostOps3_3) ?_
    refine Eq.trans (by host_keeps hostOps3_2) ?_
    refine Eq.trans (by host_keeps hostOps3_1) ?_
    refine Eq.trans (by host_keeps hostOps3) ?_
    refine (W18_of_ne (F := Ideal) m ρ c _ (by decide)).trans ?_
    host_keeps hostOps2

theorem layer0 (c : Dev nD) :
    W18 (F := Ideal) m ρ c (Proc.devRef .tc main_v72)
      = Cert.Sage.layerKer true 0 (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  have hA0 := (W14_arr (F := Ideal) m ρ c 10).trans (RegionValue.acc0 (V13 (F := Ideal) m ρ) c)
  have hA : W14 (F := Ideal) m ρ c (Proc.devRef .tc main_v58_0) = accKer m true 0 (m ((c : Thread nD τ).loc main_arg0)) c := by
    refine hA0.trans ?_
    dsimp only [V13]
    rw [feat0, nsum0_0, nsum0_1, nsum0_2, recip0_0, recip0_1, recip0_2, wself0, wneigh0, bias0]
    rfl
  have hS : W14 (F := Ideal) m ρ c (Proc.devRef .tc main_v58_1) = Cert.Sage.rowBlockSums (B := 20) (R := 5000) (by decide) (W14 (F := Ideal) m ρ c (Proc.devRef .tc main_v58_0)) :=
    ((W14_arr (F := Ideal) m ρ c 11).trans (RegionValue.sums0 (V13 (F := Ideal) m ρ) c)).trans (congrArg (Cert.Sage.rowBlockSums (B := 20) (R := 5000) (by decide)) hA0.symm)
  have hMu : W15 (F := Ideal) m ρ c (Proc.devRef .tc main_v61) = Cert.Sage.meanOfBlocks (W14 (F := Ideal) m ρ c (Proc.devRef .tc main_v58_1)) := by
    show StableHlo.after hostOps1 (W14 (F := Ideal) m ρ c) (Proc.devRef .tc main_v61) = _
    after_results
    exact mean_of_blocks_host _ _ (by decide) _ _
  have kA : W15 (F := Ideal) m ρ c (Proc.devRef .tc main_v58_0) = W14 (F := Ideal) m ρ c (Proc.devRef .tc main_v58_0) := by host_keeps hostOps1
  have hQ : W16 (F := Ideal) m ρ c (Proc.devRef .tc main_v62) = Cert.Sage.rowBlockSquares (B := 10) (R := 10000) (by decide) (W14 (F := Ideal) m ρ c (Proc.devRef .tc main_v58_0)) (W15 (F := Ideal) m ρ c (Proc.devRef .tc main_v61)) := by
    refine ((W16_arr (F := Ideal) m ρ c 2).trans (RegionValue.squares1 (V15 (F := Ideal) m ρ) c)).trans ?_
    dsimp only [V15]
    rw [kA]
  have iA : W16 (F := Ideal) m ρ c (Proc.devRef .tc main_v58_0) = W15 (F := Ideal) m ρ c (Proc.devRef .tc main_v58_0) :=
    (W16_arr (F := Ideal) m ρ c 0).trans (((dat1 (V15 (F := Ideal) m ρ) c).arrAt_in 0 rfl _).trans (A_eq1 (V15 (F := Ideal) m ρ) c 0))
  have iMu : W16 (F := Ideal) m ρ c (Proc.devRef .tc main_v61) = W15 (F := Ideal) m ρ c (Proc.devRef .tc main_v61) :=
    (W16_arr (F := Ideal) m ρ c 1).trans (((dat1 (V15 (F := Ideal) m ρ) c).arrAt_in 1 rfl _).trans (A_eq1 (V15 (F := Ideal) m ρ) c 1))
  have jA : W17 (F := Ideal) m ρ c (Proc.devRef .tc main_v58_0) = W16 (F := Ideal) m ρ c (Proc.devRef .tc main_v58_0) := by host_keeps hostOps2
  have jMu : W17 (F := Ideal) m ρ c (Proc.devRef .tc main_v61) = W16 (F := Ideal) m ρ c (Proc.devRef .tc main_v61) := by host_keeps hostOps2
  have hV : W17 (F := Ideal) m ρ c (Proc.devRef .tc main_v65) = Cert.Sage.meanOfBlocks (W16 (F := Ideal) m ρ c (Proc.devRef .tc main_v62)) := by
    show StableHlo.after hostOps2 (W16 (F := Ideal) m ρ c) (Proc.devRef .tc main_v65) = _
    after_results
    exact mean_of_blocks_host _ _ (by decide) _ _
  have hG : W17 (F := Ideal) m ρ c (Proc.devRef .tc main_v68) = Cert.Sage.featRowOf (m ((c : Thread nD τ).loc main_arg6)) 0 := by
    rw [← arg_W16 m ρ main_arg6 (.inl rfl) c]
    show StableHlo.after hostOps2 (W16 (F := Ideal) m ρ c) (Proc.devRef .tc main_v68) = _
    after_results
    exact row_host 0 _ _ _ _
  have hB : W17 (F := Ideal) m ρ c (Proc.devRef .tc main_v71) = Cert.Sage.featRowOf (m ((c : Thread nD τ).loc main_arg7)) 0 := by
    rw [← arg_W16 m ρ main_arg7 (.inr rfl) c]
    show StableHlo.after hostOps2 (W16 (F := Ideal) m ρ c) (Proc.devRef .tc main_v71) = _
    after_results
    exact row_host 0 _ _ _ _
  have hN : W18 (F := Ideal) m ρ c (Proc.devRef .tc main_v72) = Cert.Sage.normRows (W14 (F := Ideal) m ρ c (Proc.devRef .tc main_v58_0)) (W15 (F := Ideal) m ρ c (Proc.devRef .tc main_v61)) (W17 (F := Ideal) m ρ c (Proc.devRef .tc main_v65)) (W17 (F := Ideal) m ρ c (Proc.devRef .tc main_v68)) (W17 (F := Ideal) m ρ c (Proc.devRef .tc main_v71)) := by
    refine ((W18_arr (F := Ideal) m ρ c 5).trans (RegionValue.norm2 (V17 (F := Ideal) m ρ) c)).trans ?_
    dsimp only [V17]
    rw [jA, iA, kA, jMu, iMu]
  exact layerKer_of m true 0 _ c hA hS hMu hQ hV hG hB hN

theorem layer1 (c : Dev nD) :
    W30 (F := Ideal) m ρ c (Proc.devRef .tc main_v117)
      = Cert.Sage.layerKer true 1 (W18 (F := Ideal) m ρ c (Proc.devRef .tc main_v72))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  have hA0 := (W26_arr (F := Ideal) m ρ c 10).trans (RegionValue.acc3 (V25 (F := Ideal) m ρ) c)
  have hA : W26 (F := Ideal) m ρ c (Proc.devRef .tc main_v103_0) = accKer m true 1 (W18 (F := Ideal) m ρ c (Proc.devRef .tc main_v72)) c := by
    refine hA0.trans ?_
    dsimp only [V25]
    rw [feat1, nsum1_0, nsum1_1, nsum1_2, recip1_0, recip1_1, recip1_2, wself1, wneigh1, bias1]
    rfl
  have hS : W26 (F := Ideal) m ρ c (Proc.devRef .tc main_v103_1) = Cert.Sage.rowBlockSums (B := 20) (R := 5000) (by decide) (W26 (F := Ideal) m ρ c (Proc.devRef .tc main_v103_0)) :=
    ((W26_arr (F := Ideal) m ρ c 11).trans (RegionValue.sums3 (V25 (F := Ideal) m ρ) c)).trans (congrArg (Cert.Sage.rowBlockSums (B := 20) (R := 5000) (by decide)) hA0.symm)
  have hMu : W27 (F := Ideal) m ρ c (Proc.devRef .tc main_v106) = Cert.Sage.meanOfBlocks (W26 (F := Ideal) m ρ c (Proc.devRef .tc main_v103_1)) := by
    show StableHlo.after hostOps4 (W26 (F := Ideal) m ρ c) (Proc.devRef .tc main_v106) = _
    after_results
    exact mean_of_blocks_host _ _ (by decide) _ _
  have kA : W27 (F := Ideal) m ρ c (Proc.devRef .tc main_v103_0) = W26 (F := Ideal) m ρ c (Proc.devRef .tc main_v103_0) := by host_keeps hostOps4
  have hQ : W28 (F := Ideal) m ρ c (Proc.devRef .tc main_v107) = Cert.Sage.rowBlockSquares (B := 10) (R := 10000) (by decide) (W26 (F := Ideal) m ρ c (Proc.devRef .tc main_v103_0)) (W27 (F := Ideal) m ρ c (Proc.devRef .tc main_v106)) := by
    refine ((W28_arr (F := Ideal) m ρ c 2).trans (RegionValue.squares4 (V27 (F := Ideal) m ρ) c)).trans ?_
    dsimp only [V27]
    rw [kA]
  have iA : W28 (F := Ideal) m ρ c (Proc.devRef .tc main_v103_0) = W27 (F := Ideal) m ρ c (Proc.devRef .tc main_v103_0) :=
    (W28_arr (F := Ideal) m ρ c 0).trans (((dat4 (V27 (F := Ideal) m ρ) c).arrAt_in 0 rfl _).trans (A_eq4 (V27 (F := Ideal) m ρ) c 0))
  have iMu : W28 (F := Ideal) m ρ c (Proc.devRef .tc main_v106) = W27 (F := Ideal) m ρ c (Proc.devRef .tc main_v106) :=
    (W28_arr (F := Ideal) m ρ c 1).trans (((dat4 (V27 (F := Ideal) m ρ) c).arrAt_in 1 rfl _).trans (A_eq4 (V27 (F := Ideal) m ρ) c 1))
  have jA : W29 (F := Ideal) m ρ c (Proc.devRef .tc main_v103_0) = W28 (F := Ideal) m ρ c (Proc.devRef .tc main_v103_0) := by host_keeps hostOps5
  have jMu : W29 (F := Ideal) m ρ c (Proc.devRef .tc main_v106) = W28 (F := Ideal) m ρ c (Proc.devRef .tc main_v106) := by host_keeps hostOps5
  have hV : W29 (F := Ideal) m ρ c (Proc.devRef .tc main_v110) = Cert.Sage.meanOfBlocks (W28 (F := Ideal) m ρ c (Proc.devRef .tc main_v107)) := by
    show StableHlo.after hostOps5 (W28 (F := Ideal) m ρ c) (Proc.devRef .tc main_v110) = _
    after_results
    exact mean_of_blocks_host _ _ (by decide) _ _
  have hG : W29 (F := Ideal) m ρ c (Proc.devRef .tc main_v113) = Cert.Sage.featRowOf (m ((c : Thread nD τ).loc main_arg6)) 1 := by
    rw [← arg_W28 m ρ main_arg6 (.inl rfl) c]
    show StableHlo.after hostOps5 (W28 (F := Ideal) m ρ c) (Proc.devRef .tc main_v113) = _
    after_results
    exact row_host 1 _ _ _ _
  have hB : W29 (F := Ideal) m ρ c (Proc.devRef .tc main_v116) = Cert.Sage.featRowOf (m ((c : Thread nD τ).loc main_arg7)) 1 := by
    rw [← arg_W28 m ρ main_arg7 (.inr rfl) c]
    show StableHlo.after hostOps5 (W28 (F := Ideal) m ρ c) (Proc.devRef .tc main_v116) = _
    after_results
    exact row_host 1 _ _ _ _
  have hN : W30 (F := Ideal) m ρ c (Proc.devRef .tc main_v117) = Cert.Sage.normRows (W26 (F := Ideal) m ρ c (Proc.devRef .tc main_v103_0)) (W27 (F := Ideal) m ρ c (Proc.devRef .tc main_v106)) (W29 (F := Ideal) m ρ c (Proc.devRef .tc main_v110)) (W29 (F := Ideal) m ρ c (Proc.devRef .tc main_v113)) (W29 (F := Ideal) m ρ c (Proc.devRef .tc main_v116)) := by
    refine ((W30_arr (F := Ideal) m ρ c 5).trans (RegionValue.norm5 (V29 (F := Ideal) m ρ) c)).trans ?_
    dsimp only [V29]
    rw [jA, iA, kA, jMu, iMu]
  exact layerKer_of m true 1 _ c hA hS hMu hQ hV hG hB hN

theorem layer2 (c : Dev nD) :
    W42 (F := Ideal) m ρ c (Proc.devRef .tc main_v162)
      = Cert.Sage.layerKer false 2 (W30 (F := Ideal) m ρ c (Proc.devRef .tc main_v117))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  have hA0 := (W38_arr (F := Ideal) m ρ c 10).trans (RegionValue.acc6 (V37 (F := Ideal) m ρ) c)
  have hA : W38 (F := Ideal) m ρ c (Proc.devRef .tc main_v148_0) = accKer m false 2 (W30 (F := Ideal) m ρ c (Proc.devRef .tc main_v117)) c := by
    refine hA0.trans ?_
    dsimp only [V37]
    rw [feat2, nsum2_0, nsum2_1, nsum2_2, recip2_0, recip2_1, recip2_2, wself2, wneigh2, bias2]
    rfl
  have hS : W38 (F := Ideal) m ρ c (Proc.devRef .tc main_v148_1) = Cert.Sage.rowBlockSums (B := 20) (R := 5000) (by decide) (W38 (F := Ideal) m ρ c (Proc.devRef .tc main_v148_0)) :=
    ((W38_arr (F := Ideal) m ρ c 11).trans (RegionValue.sums6 (V37 (F := Ideal) m ρ) c)).trans (congrArg (Cert.Sage.rowBlockSums (B := 20) (R := 5000) (by decide)) hA0.symm)
  have hMu : W39 (F := Ideal) m ρ c (Proc.devRef .tc main_v151) = Cert.Sage.meanOfBlocks (W38 (F := Ideal) m ρ c (Proc.devRef .tc main_v148_1)) := by
    show StableHlo.after hostOps7 (W38 (F := Ideal) m ρ c) (Proc.devRef .tc main_v151) = _
    after_results
    exact mean_of_blocks_host _ _ (by decide) _ _
  have kA : W39 (F := Ideal) m ρ c (Proc.devRef .tc main_v148_0) = W38 (F := Ideal) m ρ c (Proc.devRef .tc main_v148_0) := by host_keeps hostOps7
  have hQ : W40 (F := Ideal) m ρ c (Proc.devRef .tc main_v152) = Cert.Sage.rowBlockSquares (B := 10) (R := 10000) (by decide) (W38 (F := Ideal) m ρ c (Proc.devRef .tc main_v148_0)) (W39 (F := Ideal) m ρ c (Proc.devRef .tc main_v151)) := by
    refine ((W40_arr (F := Ideal) m ρ c 2).trans (RegionValue.squares7 (V39 (F := Ideal) m ρ) c)).trans ?_
    dsimp only [V39]
    rw [kA]
  have iA : W40 (F := Ideal) m ρ c (Proc.devRef .tc main_v148_0) = W39 (F := Ideal) m ρ c (Proc.devRef .tc main_v148_0) :=
    (W40_arr (F := Ideal) m ρ c 0).trans (((dat7 (V39 (F := Ideal) m ρ) c).arrAt_in 0 rfl _).trans (A_eq7 (V39 (F := Ideal) m ρ) c 0))
  have iMu : W40 (F := Ideal) m ρ c (Proc.devRef .tc main_v151) = W39 (F := Ideal) m ρ c (Proc.devRef .tc main_v151) :=
    (W40_arr (F := Ideal) m ρ c 1).trans (((dat7 (V39 (F := Ideal) m ρ) c).arrAt_in 1 rfl _).trans (A_eq7 (V39 (F := Ideal) m ρ) c 1))
  have jA : W41 (F := Ideal) m ρ c (Proc.devRef .tc main_v148_0) = W40 (F := Ideal) m ρ c (Proc.devRef .tc main_v148_0) := by host_keeps hostOps8
  have jMu : W41 (F := Ideal) m ρ c (Proc.devRef .tc main_v151) = W40 (F := Ideal) m ρ c (Proc.devRef .tc main_v151) := by host_keeps hostOps8
  have hV : W41 (F := Ideal) m ρ c (Proc.devRef .tc main_v155) = Cert.Sage.meanOfBlocks (W40 (F := Ideal) m ρ c (Proc.devRef .tc main_v152)) := by
    show StableHlo.after hostOps8 (W40 (F := Ideal) m ρ c) (Proc.devRef .tc main_v155) = _
    after_results
    exact mean_of_blocks_host _ _ (by decide) _ _
  have hG : W41 (F := Ideal) m ρ c (Proc.devRef .tc main_v158) = Cert.Sage.featRowOf (m ((c : Thread nD τ).loc main_arg6)) 2 := by
    rw [← arg_W40 m ρ main_arg6 (.inl rfl) c]
    show StableHlo.after hostOps8 (W40 (F := Ideal) m ρ c) (Proc.devRef .tc main_v158) = _
    after_results
    exact row_host 2 _ _ _ _
  have hB : W41 (F := Ideal) m ρ c (Proc.devRef .tc main_v161) = Cert.Sage.featRowOf (m ((c : Thread nD τ).loc main_arg7)) 2 := by
    rw [← arg_W40 m ρ main_arg7 (.inr rfl) c]
    show StableHlo.after hostOps8 (W40 (F := Ideal) m ρ c) (Proc.devRef .tc main_v161) = _
    after_results
    exact row_host 2 _ _ _ _
  have hN : W42 (F := Ideal) m ρ c (Proc.devRef .tc main_v162) = Cert.Sage.normRows (W38 (F := Ideal) m ρ c (Proc.devRef .tc main_v148_0)) (W39 (F := Ideal) m ρ c (Proc.devRef .tc main_v151)) (W41 (F := Ideal) m ρ c (Proc.devRef .tc main_v155)) (W41 (F := Ideal) m ρ c (Proc.devRef .tc main_v158)) (W41 (F := Ideal) m ρ c (Proc.devRef .tc main_v161)) := by
    refine ((W42_arr (F := Ideal) m ρ c 5).trans (RegionValue.norm8 (V41 (F := Ideal) m ρ) c)).trans ?_
    dsimp only [V41]
    rw [jA, iA, kA, jMu, iMu]
  exact layerKer_of m false 2 _ c hA hS hMu hQ hV hG hB hN

end Cert.KernelIdeal.Layers

end
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

end Idealize.ShloMosaic.StableHlo.Ssa

end
-- ==== Proof.RefWrites.lean ====
import proofs.«429645_j52570399703510_2_alg».proof.Proof.RefRun
import proofs.«429645_j52570399703510_2_alg».proof.Proof.LibSsa

noncomputable section

namespace Idealize.ShloMosaic.StableHlo.Ssa

open Idealize.ShloMosaic Idealize.ShloMosaic.StableHlo

/-- Two lines run one after the other write the buffers of the first, then those of the second. -/
theorem WritesOnly.append {τ : Topo} {sig : RefSig} {Val : EltTy → Type} :
    ∀ (l₁ l₂ : List (HloOp τ sig Val)) (W₁ W₂ : List (Ref sig .tc)),
      WritesOnly l₁ W₁ → WritesOnly l₂ W₂ → WritesOnly (l₁ ++ l₂) (W₁ ++ W₂)
  | [], _, [], _, _, h => h
  | _ :: l, l₂, _ :: W, W₂, h₁, h₂ => ⟨h₁.1, WritesOnly.append l l₂ W W₂ h₁.2 h₂⟩
  | [], _, _ :: _, _, h, _ => h.elim
  | _ :: _, _, [], _, h, _ => h.elim

end Idealize.ShloMosaic.StableHlo.Ssa

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffers the operations write, in order. -/
abbrev writes : List (Ref sig .tc) :=
  [ main_cst, main_v0, main_v1, main_v2, main_cst_0, main_v3, main_v4, main_v5, main_cst_1, main_call0_v0,
    main_call0_v1, main_v6, main_cst_2, main_v7, main_v8, main_v9, main_cst_3, main_v10, main_v11, main_v12,
    main_cst_4, main_call1_v0, main_call1_v1, main_v13, main_cst_5, main_v14, main_v15, main_v16, main_cst_6,
    main_v17, main_v18, main_v19, main_cst_7, main_call2_v0, main_call2_v1, main_v20, main_cst_8, main_v21, main_v22,
    main_v23, main_c, main_v24, main_v25, main_c_9, main_v26, main_v27, main_v28, main_v29, main_v30, main_v31,
    main_v32, main_cst_10, main_v33, main_v34, main_v35, main_v36, main_v37, main_v38, main_v39, main_v40, main_v41,
    main_v42, main_v43, main_v44, main_v45, main_v46, main_v47, main_v48, main_v49, main_v50, main_call3_cst,
    main_call3_v0, main_v51, main_v52, main_v53, main_v54, main_c_11, main_v55, main_v56, main_c_12, main_v57,
    main_v58, main_v59, main_v60, main_v61, main_v62, main_v63, main_cst_13, main_v64, main_v65, main_v66, main_v67,
    main_v68, main_v69, main_v70, main_v71, main_v72, main_v73, main_v74, main_v75, main_v76, main_v77, main_v78,
    main_v79, main_v80, main_v81, main_call4_cst, main_call4_v0, main_v82, main_v83, main_v84, main_v85, main_c_14,
    main_v86, main_v87, main_c_15, main_v88, main_v89, main_v90, main_v91, main_v92, main_v93, main_v94, main_cst_16,
    main_v95, main_v96, main_v97, main_v98, main_v99, main_v100, main_v101, main_v102, main_v103, main_v104,
    main_v105, main_v106, main_v107, main_v108, main_v109, main_v110, main_v111, main_v112, main_call5_cst,
    main_call5_v0, main_v113, main_v114, main_cst_17, main_v115, main_cst_18, main_v116, main_v117, main_v118,
    main_v119, main_v120, main_v121, main_cst_19, main_v122, main_cst_20, main_v123, main_v124, main_v125, main_v126,
    main_v127, main_v128, main_v129, main_v130, main_v131, main_v132, main_cst_21, main_v133, main_v134, main_v135,
    main_v136, main_v137, main_v138, main_v139, main_v140, main_v141, main_v142, main_v143, main_cst_22, main_v144,
    main_v145, main_v146, main_c_23, main_v147, main_v148, main_c_24, main_v149, main_v150, main_v151, main_v152,
    main_v153, main_v154, main_v155, main_cst_25, main_v156, main_v157, main_v158, main_v159, main_v160, main_v161,
    main_v162, main_v163, main_v164, main_v165, main_v166, main_v167, main_v168, main_v169, main_v170, main_v171,
    main_v172, main_v173, main_call6_cst, main_call6_v0, main_v174, main_v175, main_v176, main_v177, main_c_26,
    main_v178, main_v179, main_c_27, main_v180, main_v181, main_v182, main_v183, main_v184, main_v185, main_v186,
    main_cst_28, main_v187, main_v188, main_v189, main_v190, main_v191, main_v192, main_v193, main_v194, main_v195,
    main_v196, main_v197, main_v198, main_v199, main_v200, main_v201, main_v202, main_v203, main_v204,
    main_call7_cst, main_call7_v0, main_v205, main_v206, main_v207, main_v208, main_c_29, main_v209, main_v210,
    main_c_30, main_v211, main_v212, main_v213, main_v214, main_v215, main_v216, main_v217, main_cst_31, main_v218,
    main_v219, main_v220, main_v221, main_v222, main_v223, main_v224, main_v225, main_v226, main_v227, main_v228,
    main_v229, main_v230, main_v231, main_v232, main_v233, main_v234, main_v235, main_call8_cst, main_call8_v0,
    main_v236, main_v237, main_cst_32, main_v238, main_cst_33, main_v239, main_v240, main_v241, main_v242, main_v243,
    main_v244, main_cst_34, main_v245, main_cst_35, main_v246, main_v247, main_v248, main_v249, main_v250, main_v251,
    main_v252, main_v253, main_v254, main_v255, main_cst_36, main_v256, main_v257, main_v258, main_v259, main_v260,
    main_v261, main_v262, main_v263, main_v264, main_v265, main_v266, main_cst_37, main_v267, main_v268, main_v269,
    main_c_38, main_v270, main_v271, main_c_39, main_v272, main_v273, main_v274, main_v275, main_v276, main_v277,
    main_v278, main_cst_40, main_v279, main_v280, main_v281, main_v282, main_v283, main_v284, main_v285, main_v286,
    main_v287, main_v288, main_v289, main_v290, main_v291, main_v292, main_v293, main_v294, main_v295, main_v296,
    main_v297, main_v298, main_v299, main_c_41, main_v300, main_v301, main_c_42, main_v302, main_v303, main_v304,
    main_v305, main_v306, main_v307, main_v308, main_cst_43, main_v309, main_v310, main_v311, main_v312, main_v313,
    main_v314, main_v315, main_v316, main_v317, main_v318, main_v319, main_v320, main_v321, main_v322, main_v323,
    main_v324, main_v325, main_v326, main_v327, main_v328, main_v329, main_c_44, main_v330, main_v331, main_c_45,
    main_v332, main_v333, main_v334, main_v335, main_v336, main_v337, main_v338, main_cst_46, main_v339, main_v340,
    main_v341, main_v342, main_v343, main_v344, main_v345, main_v346, main_v347, main_v348, main_v349, main_v350,
    main_v351, main_v352, main_v353, main_v354, main_v355, main_v356, main_v357, main_cst_47, main_v358, main_cst_48,
    main_v359, main_v360, main_v361, main_v362, main_v363, main_v364, main_cst_49, main_v365, main_cst_50, main_v366,
    main_v367, main_v368, main_v369, main_v370, main_v371, main_v372, main_v373, main_v374, main_v375, main_cst_51,
    main_v376, main_v377, main_v378, main_v379, main_v380, main_v381, main_v382, main_v383, main_v384, main_v385,
    main_v386 ]

/-- The buffers the operations 1 … 66 (`ops_0`) write, in order. -/
abbrev writes_0 : List (Ref sig .tc) :=
  [ main_cst, main_v0, main_v1, main_v2, main_cst_0, main_v3, main_v4, main_v5, main_cst_1, main_call0_v0,
    main_call0_v1, main_v6, main_cst_2, main_v7, main_v8, main_v9, main_cst_3, main_v10, main_v11, main_v12,
    main_cst_4, main_call1_v0, main_call1_v1, main_v13, main_cst_5, main_v14, main_v15, main_v16, main_cst_6,
    main_v17, main_v18, main_v19, main_cst_7, main_call2_v0, main_call2_v1, main_v20, main_cst_8, main_v21, main_v22,
    main_v23, main_c, main_v24, main_v25, main_c_9, main_v26, main_v27, main_v28, main_v29, main_v30, main_v31,
    main_v32, main_cst_10, main_v33, main_v34, main_v35, main_v36, main_v37, main_v38, main_v39, main_v40, main_v41,
    main_v42, main_v43, main_v44, main_v45, main_v46 ]
set_option maxRecDepth 8192 in
theorem ops_0_writes : Ssa.WritesOnly (ops_0 (F := F)) writes_0 :=
  ⟨nullary_writes .., unary_writes .., unary_writes .., reshape_writes .., nullary_writes .., unary_writes ..,
   unary_writes .., ternary_writes .., nullary_writes .., unary_writes .., unary_writes .., binary_writes ..,
   nullary_writes .., unary_writes .., unary_writes .., reshape_writes .., nullary_writes .., unary_writes ..,
   unary_writes .., ternary_writes .., nullary_writes .., unary_writes .., unary_writes .., binary_writes ..,
   nullary_writes .., unary_writes .., unary_writes .., reshape_writes .., nullary_writes .., unary_writes ..,
   unary_writes .., ternary_writes .., nullary_writes .., unary_writes .., unary_writes .., binary_writes ..,
   nullary_writes .., unary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes .., trivial⟩

/-- The buffers the operations 67 … 130 (`ops_1`) write, in order. -/
abbrev writes_1 : List (Ref sig .tc) :=
  [ main_v47, main_v48, main_v49, main_v50, main_call3_cst, main_call3_v0, main_v51, main_v52, main_v53, main_v54,
    main_c_11, main_v55, main_v56, main_c_12, main_v57, main_v58, main_v59, main_v60, main_v61, main_v62, main_v63,
    main_cst_13, main_v64, main_v65, main_v66, main_v67, main_v68, main_v69, main_v70, main_v71, main_v72, main_v73,
    main_v74, main_v75, main_v76, main_v77, main_v78, main_v79, main_v80, main_v81, main_call4_cst, main_call4_v0,
    main_v82, main_v83, main_v84, main_v85, main_c_14, main_v86, main_v87, main_c_15, main_v88, main_v89, main_v90,
    main_v91, main_v92, main_v93, main_v94, main_cst_16, main_v95, main_v96, main_v97, main_v98, main_v99, main_v100 ]
set_option maxRecDepth 8192 in
theorem ops_1_writes : Ssa.WritesOnly (ops_1 (F := F)) writes_1 :=
  ⟨reshape_writes .., unary_writes .., unary_writes .., binary_writes .., nullary_writes .., unary_writes ..,
   binary_writes .., binary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes ..,
   reshape_writes .., unary_writes .., unary_writes .., binary_writes .., nullary_writes .., unary_writes ..,
   binary_writes .., binary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., trivial⟩

/-- The buffers the operations 131 … 192 (`ops_2`) write, in order. -/
abbrev writes_2 : List (Ref sig .tc) :=
  [ main_v101, main_v102, main_v103, main_v104, main_v105, main_v106, main_v107, main_v108, main_v109, main_v110,
    main_v111, main_v112, main_call5_cst, main_call5_v0, main_v113, main_v114, main_cst_17, main_v115, main_cst_18,
    main_v116, main_v117, main_v118, main_v119, main_v120, main_v121, main_cst_19, main_v122, main_cst_20, main_v123,
    main_v124, main_v125, main_v126, main_v127, main_v128, main_v129, main_v130, main_v131, main_v132, main_cst_21,
    main_v133, main_v134, main_v135, main_v136, main_v137, main_v138, main_v139, main_v140, main_v141, main_v142,
    main_v143, main_cst_22, main_v144, main_v145, main_v146, main_c_23, main_v147, main_v148, main_c_24, main_v149,
    main_v150, main_v151, main_v152 ]
set_option maxRecDepth 8192 in
theorem ops_2_writes : Ssa.WritesOnly (ops_2 (F := F)) writes_2 :=
  ⟨unary_writes .., reshape_writes .., binary_writes .., unary_writes .., reshape_writes .., binary_writes ..,
   binary_writes .., unary_writes .., reshape_writes .., unary_writes .., unary_writes .., binary_writes ..,
   nullary_writes .., unary_writes .., binary_writes .., binary_writes .., nullary_writes .., binary_writes ..,
   nullary_writes .., unary_writes .., binary_writes .., unary_writes .., unary_writes .., binary_writes ..,
   binary_writes .., nullary_writes .., binary_writes .., nullary_writes .., unary_writes .., binary_writes ..,
   unary_writes .., reshape_writes .., unary_writes .., unary_writes .., binary_writes .., unary_writes ..,
   unary_writes .., binary_writes .., nullary_writes .., unary_writes .., binary_writes .., unary_writes ..,
   unary_writes .., unary_writes .., binary_writes .., unary_writes .., reshape_writes .., unary_writes ..,
   unary_writes .., binary_writes .., nullary_writes .., unary_writes .., unary_writes .., reshape_writes ..,
   nullary_writes .., unary_writes .., binary_writes .., nullary_writes .., unary_writes .., binary_writes ..,
   ternary_writes .., unary_writes .., trivial⟩

/-- The buffers the operations 193 … 256 (`ops_3`) write, in order. -/
abbrev writes_3 : List (Ref sig .tc) :=
  [ main_v153, main_v154, main_v155, main_cst_25, main_v156, main_v157, main_v158, main_v159, main_v160, main_v161,
    main_v162, main_v163, main_v164, main_v165, main_v166, main_v167, main_v168, main_v169, main_v170, main_v171,
    main_v172, main_v173, main_call6_cst, main_call6_v0, main_v174, main_v175, main_v176, main_v177, main_c_26,
    main_v178, main_v179, main_c_27, main_v180, main_v181, main_v182, main_v183, main_v184, main_v185, main_v186,
    main_cst_28, main_v187, main_v188, main_v189, main_v190, main_v191, main_v192, main_v193, main_v194, main_v195,
    main_v196, main_v197, main_v198, main_v199, main_v200, main_v201, main_v202, main_v203, main_v204,
    main_call7_cst, main_call7_v0, main_v205, main_v206, main_v207, main_v208 ]
set_option maxRecDepth 8192 in
theorem ops_3_writes : Ssa.WritesOnly (ops_3 (F := F)) writes_3 :=
  ⟨binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes ..,
   reshape_writes .., unary_writes .., unary_writes .., binary_writes .., nullary_writes .., unary_writes ..,
   binary_writes .., binary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes ..,
   reshape_writes .., unary_writes .., unary_writes .., binary_writes .., nullary_writes .., unary_writes ..,
   binary_writes .., binary_writes .., unary_writes .., reshape_writes .., trivial⟩

/-- The buffers the operations 257 … 318 (`ops_4`) write, in order. -/
abbrev writes_4 : List (Ref sig .tc) :=
  [ main_c_29, main_v209, main_v210, main_c_30, main_v211, main_v212, main_v213, main_v214, main_v215, main_v216,
    main_v217, main_cst_31, main_v218, main_v219, main_v220, main_v221, main_v222, main_v223, main_v224, main_v225,
    main_v226, main_v227, main_v228, main_v229, main_v230, main_v231, main_v232, main_v233, main_v234, main_v235,
    main_call8_cst, main_call8_v0, main_v236, main_v237, main_cst_32, main_v238, main_cst_33, main_v239, main_v240,
    main_v241, main_v242, main_v243, main_v244, main_cst_34, main_v245, main_cst_35, main_v246, main_v247, main_v248,
    main_v249, main_v250, main_v251, main_v252, main_v253, main_v254, main_v255, main_cst_36, main_v256, main_v257,
    main_v258, main_v259, main_v260 ]
set_option maxRecDepth 8192 in
theorem ops_4_writes : Ssa.WritesOnly (ops_4 (F := F)) writes_4 :=
  ⟨nullary_writes .., unary_writes .., binary_writes .., nullary_writes .., unary_writes .., binary_writes ..,
   ternary_writes .., unary_writes .., binary_writes .., unary_writes .., reshape_writes .., nullary_writes ..,
   unary_writes .., unary_writes .., ternary_writes .., unary_writes .., unary_writes .., binary_writes ..,
   unary_writes .., reshape_writes .., binary_writes .., unary_writes .., reshape_writes .., binary_writes ..,
   binary_writes .., unary_writes .., reshape_writes .., unary_writes .., unary_writes .., binary_writes ..,
   nullary_writes .., unary_writes .., binary_writes .., binary_writes .., nullary_writes .., binary_writes ..,
   nullary_writes .., unary_writes .., binary_writes .., unary_writes .., unary_writes .., binary_writes ..,
   binary_writes .., nullary_writes .., binary_writes .., nullary_writes .., unary_writes .., binary_writes ..,
   unary_writes .., reshape_writes .., unary_writes .., unary_writes .., binary_writes .., unary_writes ..,
   unary_writes .., binary_writes .., nullary_writes .., unary_writes .., binary_writes .., unary_writes ..,
   unary_writes .., unary_writes .., trivial⟩

/-- The buffers the operations 319 … 378 (`ops_5`) write, in order. -/
abbrev writes_5 : List (Ref sig .tc) :=
  [ main_v261, main_v262, main_v263, main_v264, main_v265, main_v266, main_cst_37, main_v267, main_v268, main_v269,
    main_c_38, main_v270, main_v271, main_c_39, main_v272, main_v273, main_v274, main_v275, main_v276, main_v277,
    main_v278, main_cst_40, main_v279, main_v280, main_v281, main_v282, main_v283, main_v284, main_v285, main_v286,
    main_v287, main_v288, main_v289, main_v290, main_v291, main_v292, main_v293, main_v294, main_v295, main_v296,
    main_v297, main_v298, main_v299, main_c_41, main_v300, main_v301, main_c_42, main_v302, main_v303, main_v304,
    main_v305, main_v306, main_v307, main_v308, main_cst_43, main_v309, main_v310, main_v311, main_v312, main_v313 ]
set_option maxRecDepth 8192 in
theorem ops_5_writes : Ssa.WritesOnly (ops_5 (F := F)) writes_5 :=
  ⟨binary_writes .., unary_writes .., reshape_writes .., unary_writes .., unary_writes .., binary_writes ..,
   nullary_writes .., unary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes ..,
   reshape_writes .., unary_writes .., unary_writes .., binary_writes .., binary_writes .., unary_writes ..,
   reshape_writes .., nullary_writes .., unary_writes .., binary_writes .., nullary_writes .., unary_writes ..,
   binary_writes .., ternary_writes .., unary_writes .., binary_writes .., unary_writes .., reshape_writes ..,
   nullary_writes .., unary_writes .., unary_writes .., ternary_writes .., unary_writes .., unary_writes .., trivial⟩

/-- The buffers the operations 379 … 438 (`ops_6`) write, in order. -/
abbrev writes_6 : List (Ref sig .tc) :=
  [ main_v314, main_v315, main_v316, main_v317, main_v318, main_v319, main_v320, main_v321, main_v322, main_v323,
    main_v324, main_v325, main_v326, main_v327, main_v328, main_v329, main_c_44, main_v330, main_v331, main_c_45,
    main_v332, main_v333, main_v334, main_v335, main_v336, main_v337, main_v338, main_cst_46, main_v339, main_v340,
    main_v341, main_v342, main_v343, main_v344, main_v345, main_v346, main_v347, main_v348, main_v349, main_v350,
    main_v351, main_v352, main_v353, main_v354, main_v355, main_v356, main_v357, main_cst_47, main_v358, main_cst_48,
    main_v359, main_v360, main_v361, main_v362, main_v363, main_v364, main_cst_49, main_v365, main_cst_50, main_v366 ]
set_option maxRecDepth 8192 in
theorem ops_6_writes : Ssa.WritesOnly (ops_6 (F := F)) writes_6 :=
  ⟨binary_writes .., unary_writes .., reshape_writes .., binary_writes .., unary_writes .., reshape_writes ..,
   binary_writes .., binary_writes .., unary_writes .., reshape_writes .., unary_writes .., unary_writes ..,
   binary_writes .., binary_writes .., unary_writes .., reshape_writes .., nullary_writes .., unary_writes ..,
   binary_writes .., nullary_writes .., unary_writes .., binary_writes .., ternary_writes .., unary_writes ..,
   binary_writes .., unary_writes .., reshape_writes .., nullary_writes .., unary_writes .., unary_writes ..,
   ternary_writes .., unary_writes .., unary_writes .., binary_writes .., unary_writes .., reshape_writes ..,
   binary_writes .., unary_writes .., reshape_writes .., binary_writes .., binary_writes .., unary_writes ..,
   reshape_writes .., unary_writes .., unary_writes .., binary_writes .., binary_writes .., nullary_writes ..,
   binary_writes .., nullary_writes .., unary_writes .., binary_writes .., unary_writes .., unary_writes ..,
   binary_writes .., binary_writes .., nullary_writes .., binary_writes .., nullary_writes .., unary_writes ..,
   trivial⟩

/-- The buffers the operations 439 … 459 (`ops_7`) write, in order. -/
abbrev writes_7 : List (Ref sig .tc) :=
  [ main_v367, main_v368, main_v369, main_v370, main_v371, main_v372, main_v373, main_v374, main_v375, main_cst_51,
    main_v376, main_v377, main_v378, main_v379, main_v380, main_v381, main_v382, main_v383, main_v384, main_v385,
    main_v386 ]
set_option maxRecDepth 8192 in
theorem ops_7_writes : Ssa.WritesOnly (ops_7 (F := F)) writes_7 :=
  ⟨binary_writes .., unary_writes .., reshape_writes .., unary_writes .., unary_writes .., binary_writes ..,
   unary_writes .., unary_writes .., binary_writes .., nullary_writes .., unary_writes .., binary_writes ..,
   unary_writes .., unary_writes .., unary_writes .., binary_writes .., unary_writes .., reshape_writes ..,
   unary_writes .., unary_writes .., binary_writes .., trivial⟩

set_option maxRecDepth 8192 in
/-- The list of the written buffers is the lists of the windows, one after the other. -/
theorem writes_eq : writes = writes_0 ++ (writes_1 ++ (writes_2 ++ (writes_3 ++ (writes_4 ++ (writes_5 ++ (writes_6 ++ (writes_7))))))) := rfl

/-- Operation by operation, `writes` names the one buffer the operation writes. -/
theorem ops_writes : Ssa.WritesOnly (ops (F := F)) writes := by
  rw [writes_eq]
  exact Ssa.WritesOnly.append _ _ _ _ ops_0_writes (Ssa.WritesOnly.append _ _ _ _ ops_1_writes (Ssa.WritesOnly.append _ _ _ _ ops_2_writes (Ssa.WritesOnly.append _ _ _ _ ops_3_writes (Ssa.WritesOnly.append _ _ _ _ ops_4_writes (Ssa.WritesOnly.append _ _ _ _ ops_5_writes (Ssa.WritesOnly.append _ _ _ _ ops_6_writes (ops_7_writes)))))))

/-- The operation at position `k` heads what is left of the list from `k` on. -/
theorem drop_of_get {k : Nat} {op : HloOp τ sig (Elt F)} (h : (ops (F := F))[k]? = some op) :
    (ops (F := F)).drop k = op :: (ops (F := F)).drop (k + 1) := by
  obtain ⟨hk, rfl⟩ := List.getElem?_eq_some_iff.mp h
  exact List.drop_eq_getElem_cons hk

set_option maxRecDepth 8192 in
/-- The written buffers sit at the consecutive positions 8, …, 466 of the signature, in order. -/
theorem writes_idx : writes.map (fun r : Ref sig .tc => r.idx.val) = List.range' 8 459 := by decide

/-- No buffer is written twice. -/
theorem writes_nodup : writes.Nodup :=
  List.Nodup.of_map (fun r : Ref sig .tc => r.idx.val) (writes_idx ▸ List.nodup_range')

end Cert.ReferenceIdeal.HostRun

end
-- ==== Proof.RefOps.lean ====
import proofs.«429645_j52570399703510_2_alg».proof.Proof.RefRun
import proofs.«429645_j52570399703510_2_alg».proof.Proof.RefWrites
import proofs.«429645_j52570399703510_2_alg».proof.Proof.LibSsa
import Idealize.ShloMosaic.Lib.StableHlo.Run
import Idealize.ShloMosaic.PureOps.Ideal

noncomputable section

namespace Cert.ReferenceIdeal.Layers

open Cert.ReferenceIdeal Cert.ReferenceIdeal.HostRun Cert.ReferenceIdeal.Gen Idealize.ShloMosaic Idealize.ShloMosaic.TcCoe Idealize.SL.Sem
open Idealize.ShloMosaic.StableHlo

/-- The written buffers sit at the consecutive signature positions 8, 9, …, so a buffer at a position below `8 + k` is not written at position `k` or later. -/
theorem nmd (y : Ref sig .tc) (k : Nat) (h : y.idx.val < 8 + k) : y ∉ writes.drop k := by
  intro hm
  have h1 : y.idx.val ∈ (writes.drop k).map (fun r : Ref sig .tc => r.idx.val) := List.mem_map_of_mem hm
  rw [List.map_drop, writes_idx, List.drop_range', List.mem_range'_1] at h1
  omega

variable (m : (ℓ : Loc nD τ sig) → Buf (Elt Ideal) ℓ) (d : Dev nD)

abbrev fin (b : Ref sig .tc) := after (ops (F := Ideal)) (launchContents m d) (Proc.devRef .tc b)

theorem arg_eq (x : Ref sig .tc) (hx : x.idx.val < 8 := by decide) : fin m d x = m ((d.tc : Thread nD τ).loc x) :=
  Ssa.after_arg ops writes ops_writes _ x (nmd x 0 hx)

theorem op0 (k : Nat) (y : Ref sig .tc) (v : y.ty.Contents (Elt Ideal)) (hy)
    (hop : (ops (F := Ideal)).drop k = nullary y v hy :: (ops (F := Ideal)).drop (k + 1))
    (hy' : y.idx.val < 8 + (k + 1) := by decide) : fin m d y = v :=
  Ssa.ssa_nullary ops writes ops_writes _ k y v hy hop (nmd y _ hy')

theorem op1 (k : Nat) (x y : Ref sig .tc) (f : x.ty.Contents (Elt Ideal) → y.ty.Contents (Elt Ideal)) (hx hy)
    (hop : (ops (F := Ideal)).drop k = unary x y f hx hy :: (ops (F := Ideal)).drop (k + 1))
    (hy' : y.idx.val < 8 + (k + 1) := by decide) (hx' : x.idx.val < 8 + k := by decide) :
    fin m d y = f (fin m d x) :=
  Ssa.ssa_unary ops writes ops_writes _ k x y f hx hy hop (nmd y _ hy') (nmd x _ hx')

theorem op2 (k : Nat) (a b y : Ref sig .tc)
    (f : a.ty.Contents (Elt Ideal) → b.ty.Contents (Elt Ideal) → y.ty.Contents (Elt Ideal)) (ha hb hy)
    (hop : (ops (F := Ideal)).drop k = binary a b y f ha hb hy :: (ops (F := Ideal)).drop (k + 1))
    (hy' : y.idx.val < 8 + (k + 1) := by decide) (ha' : a.idx.val < 8 + k := by decide)
    (hb' : b.idx.val < 8 + k := by decide) :
    fin m d y = f (fin m d a) (fin m d b) :=
  Ssa.ssa_binary ops writes ops_writes _ k a b y f ha hb hy hop (nmd y _ hy') (nmd a _ ha') (nmd b _ hb')

theorem op3 (k : Nat) (c a b y : Ref sig .tc)
    (f : c.ty.Contents (Elt Ideal) → a.ty.Contents (Elt Ideal) → b.ty.Contents (Elt Ideal) → y.ty.Contents (Elt Ideal))
    (hc ha hb hy)
    (hop : (ops (F := Ideal)).drop k = ternary c a b y f hc ha hb hy :: (ops (F := Ideal)).drop (k + 1))
    (hy' : y.idx.val < 8 + (k + 1) := by decide) (hc' : c.idx.val < 8 + k := by decide)
    (ha' : a.idx.val < 8 + k := by decide) (hb' : b.idx.val < 8 + k := by decide) :
    fin m d y = f (fin m d c) (fin m d a) (fin m d b) :=
  Ssa.ssa_ternary ops writes ops_writes _ k c a b y f hc ha hb hy hop (nmd y _ hy') (nmd c _ hc') (nmd a _ ha') (nmd b _ hb')

theorem opR (k : Nat) (x y : Ref sig .tc) (he : x.ty.elt = y.ty.elt) (hn : x.ty.shape.ShapeCasts y.ty.shape) (hx hy)
    (hop : (ops (F := Ideal)).drop k = reshape (Val := Elt Ideal) x y he hn hx hy :: (ops (F := Ideal)).drop (k + 1))
    (hy' : y.idx.val < 8 + (k + 1) := by decide) (hx' : x.idx.val < 8 + k := by decide) :
    fin m d y = fun i => he ▸ shapeCast y.ty.shape (fin m d x) hn i :=
  Ssa.ssa_reshape ops writes ops_writes _ k x y he hn hx hy hop (nmd y _ hy') (nmd x _ hx')

end Cert.ReferenceIdeal.Layers

end
-- ==== Proof.RefNeigh.lean ====
import proofs.«429645_j52570399703510_2_alg».proof.Proof.RefOps
import proofs.«429645_j52570399703510_2_alg».proof.Proof.Network
import Idealize.ShloMosaic.Lib.Pipeline.Value

noncomputable section

namespace Cert.ReferenceIdeal.Layers

open Cert.ReferenceIdeal Cert.ReferenceIdeal.HostRun Cert.ReferenceIdeal.Facts₀ Cert.ReferenceIdeal.Facts Cert.KernelIdeal.Terms
open Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

namespace Neigh

/-- One row of an edge table, as one index per edge. -/
abbrev row {off} (hs : S3x600000.Slices off S1x600000) (a : Vec Ideal S3x600000 .i32) : Vec Ideal S600000 .i32 :=
  shapeCast S600000 (extractStridedSlice S1x600000 off a hs) shapeCasts_S1x600000_S600000

/-- Both broadcasts read node `n`'s number at every feature, so the quotient divides each node's row by its number. -/
theorem divf_spread (x : FVec Ideal S100000x128 .f32) (dg : FVec Ideal S100000 .f32)
    (h1 : S100000.BroadcastsInDim S100000x1 ![0]) (h2 : S100000x1.BroadcastsInDim S100000x128 ![0, 1]) :
    Host.divf x (broadcastInDim S100000x128 ![0, 1] h2 (broadcastInDim S100000x1 ![0] h1 dg)) = Cert.Sage.divideBy x dg := by
  funext i
  refine congrArg (Ideal.div (x i)) ?_
  exact (broadcastInDim_apply ![0, 1] h2 _ i (ix2 (i 0) 0) (by intro a; fin_cases a <;> rfl)).trans
    (broadcastInDim_apply ![0] h1 dg (ix2 (i 0) 0) (ix1 (i 0)) (by intro a; fin_cases a; rfl))

/-- The twelve operations that count the edges arriving at each node along one row of the destinations. -/
theorem degree_chain {off} (hs : S3x600000.Slices off S1x600000) {a a' : Vec Ideal S3x600000 .i32} (ha : a' = a)
    {r : Vec Ideal S1x600000 .i32} {de : Vec Ideal S600000 .i32} {ec : Vec Ideal S600000x1 .i32}
    {f0 f1 f2 f3 : FVec Ideal S_ .f32} {ones : FVec Ideal S600000 .f32} {zero cnt one dg : FVec Ideal S100000 .f32}
    (d0 : f0 = constant S_ .f32 0x3F800000#32)
    (d1 : ones = broadcastInDim S600000 ![] bcast_S_S600000 f0)
    (d2 : r = extractStridedSlice S1x600000 off a' hs)
    (d3 : de = shapeCast S600000 r shapeCasts_S1x600000_S600000)
    (d4 : f1 = constant S_ .f32 0x00000000#32)
    (d5 : zero = broadcastInDim S100000 ![] bcast_S_S100000 f1)
    (d6 : ec = asColumn de)
    (d7 : cnt = Host.scatterAdd scatter_S100000_S600000x1_S600000_n_0_0_1 zero ec ones)
    (d8 : f2 = constant S_ .f32 0x3F800000#32)
    (d9 : f3 = f2)
    (d10 : one = broadcastInDim S100000 ![] bcast_S_S100000 f3)
    (d11 : dg = maximumf one cnt) : dg = degree (row hs a) := by
  subst ha d0 d1 d2 d3 d4 d5 d6 d7 d8 d9 d10 d11
  rfl

/-- The twenty operations of one edge type in one layer: wrap the sources, gather `h`, sum onto the destinations, divide. -/
theorem nb_chain {off} (hs : S3x600000.Slices off S1x600000) {a1 a1' a2 a2' : Vec Ideal S3x600000 .i32}
    (h1 : a1' = a1) (h2 : a2' = a2) {h h' : FVec Ideal S100000x128 .f32} (hh : h' = h)
    {dg : FVec Ideal S100000 .f32} (hdg : dg = degree (row hs a2))
    {r1 r2 : Vec Ideal S1x600000 .i32} {s dd z0b z1b sum sel : Vec Ideal S600000 .i32} {z0 z1 : Vec Ideal S_ .i32}
    {lt : Vec Ideal S600000 .i1} {col dcol : Vec Ideal S600000x1 .i32} {rows : FVec Ideal S600000x128 .f32}
    {f : FVec Ideal S_ .f32} {zero nsum dg2 out : FVec Ideal S100000x128 .f32} {dg1 : FVec Ideal S100000x1 .f32}
    (e0 : r1 = extractStridedSlice S1x600000 off a1' hs)
    (e1 : s = shapeCast S600000 r1 shapeCasts_S1x600000_S600000)
    (e2 : z0 = constantI S_ 32 0#32)
    (e3 : z0b = broadcastInDim S600000 ![] bcast_S_S600000 z0)
    (e4 : lt = cmpi .slt s z0b)
    (e5 : z1 = constantI S_ 32 100000#32)
    (e6 : z1b = broadcastInDim S600000 ![] bcast_S_S600000 z1)
    (e7 : sum = addi s z1b)
    (e8 : sel = select lt sum s)
    (e9 : col = asColumn sel)
    (e10 : rows = Host.gather gather_S100000x128_S600000x1_S600000x128_1_0_n_n_0_1_1128 h' col)
    (e11 : r2 = extractStridedSlice S1x600000 off a2' hs)
    (e12 : dd = shapeCast S600000 r2 shapeCasts_S1x600000_S600000)
    (e13 : f = constant S_ .f32 0x00000000#32)
    (e14 : zero = broadcastInDim S100000x128 ![] bcast_S_S100000x128 f)
    (e15 : dcol = asColumn dd)
    (e16 : nsum = Host.scatterAdd scatter_S100000x128_S600000x1_S600000x128_1_0_0_1 zero dcol rows)
    (e17 : dg1 = broadcastInDim S100000x1 ![0] bcast_S100000_S100000x1_0 dg)
    (e18 : dg2 = broadcastInDim S100000x128 ![0, 1] bcast_S100000x1_S100000x128_0_1 dg1)
    (e19 : out = Host.divf nsum dg2) : out = Cert.Sage.nbRef h (row hs a1) (row hs a2) := by
  subst h1 h2 hh hdg e0 e1 e2 e3 e4 e5 e6 e7 e8 e9 e10 e11 e12 e13 e14 e15 e16 e17 e18 e19
  exact divf_spread _ _ _ _

theorem degree0 : fin m d main_v6 = degree (row slices_S3x600000_S1x600000_0_0 (m ((d.tc : Thread nD τ).loc main_arg2))) :=
  degree_chain slices_S3x600000_S1x600000_0_0 (arg_eq m d main_arg2)
    (op0 m d 0 main_cst _ _ rfl) (op1 m d 1 main_cst main_v0 _ _ _ rfl) (op1 m d 2 main_arg2 main_v1 _ _ _ rfl)
    (opR m d 3 main_v1 main_v2 _ _ _ _ rfl) (op0 m d 4 main_cst_0 _ _ rfl) (op1 m d 5 main_cst_0 main_v3 _ _ _ rfl)
    (op1 m d 6 main_v2 main_v4 _ _ _ rfl) (op3 m d 7 main_v3 main_v4 main_v0 main_v5 _ _ _ _ _ rfl)
    (op0 m d 8 main_cst_1 _ _ rfl) (op1 m d 9 main_cst_1 main_call0_v0 _ _ _ rfl)
    (op1 m d 10 main_call0_v0 main_call0_v1 _ _ _ rfl) (op2 m d 11 main_call0_v1 main_v5 main_v6 _ _ _ _ rfl)

theorem degree1 : fin m d main_v13 = degree (row slices_S3x600000_S1x600000_1_0 (m ((d.tc : Thread nD τ).loc main_arg2))) :=
  degree_chain slices_S3x600000_S1x600000_1_0 (arg_eq m d main_arg2)
    (op0 m d 12 main_cst_2 _ _ rfl) (op1 m d 13 main_cst_2 main_v7 _ _ _ rfl) (op1 m d 14 main_arg2 main_v8 _ _ _ rfl)
    (opR m d 15 main_v8 main_v9 _ _ _ _ rfl) (op0 m d 16 main_cst_3 _ _ rfl) (op1 m d 17 main_cst_3 main_v10 _ _ _ rfl)
    (op1 m d 18 main_v9 main_v11 _ _ _ rfl) (op3 m d 19 main_v10 main_v11 main_v7 main_v12 _ _ _ _ _ rfl)
    (op0 m d 20 main_cst_4 _ _ rfl) (op1 m d 21 main_cst_4 main_call1_v0 _ _ _ rfl)
    (op1 m d 22 main_call1_v0 main_call1_v1 _ _ _ rfl) (op2 m d 23 main_call1_v1 main_v12 main_v13 _ _ _ _ rfl)

theorem degree2 : fin m d main_v20 = degree (row slices_S3x600000_S1x600000_2_0 (m ((d.tc : Thread nD τ).loc main_arg2))) :=
  degree_chain slices_S3x600000_S1x600000_2_0 (arg_eq m d main_arg2)
    (op0 m d 24 main_cst_5 _ _ rfl) (op1 m d 25 main_cst_5 main_v14 _ _ _ rfl) (op1 m d 26 main_arg2 main_v15 _ _ _ rfl)
    (opR m d 27 main_v15 main_v16 _ _ _ _ rfl) (op0 m d 28 main_cst_6 _ _ rfl) (op1 m d 29 main_cst_6 main_v17 _ _ _ rfl)
    (op1 m d 30 main_v16 main_v18 _ _ _ rfl) (op3 m d 31 main_v17 main_v18 main_v14 main_v19 _ _ _ _ _ rfl)
    (op0 m d 32 main_cst_7 _ _ rfl) (op1 m d 33 main_cst_7 main_call2_v0 _ _ _ rfl)
    (op1 m d 34 main_call2_v0 main_call2_v1 _ _ _ rfl) (op2 m d 35 main_call2_v1 main_v19 main_v20 _ _ _ _ rfl)

end Neigh

open Neigh

theorem nb0_0 :
    after (ops (F := Ideal)) (launchContents m d) (Proc.devRef .tc main_v38)
      = Cert.Sage.nbRef (m ((d.tc : Thread nD τ).loc main_arg0)) (Cert.KernelIdeal.Terms.edgeRow0 (m ((d.tc : Thread nD τ).loc main_arg1)))
          (Cert.KernelIdeal.Terms.edgeRow0 (m ((d.tc : Thread nD τ).loc main_arg2))) :=
  nb_chain slices_S3x600000_S1x600000_0_0 (arg_eq m d main_arg1) (arg_eq m d main_arg2) (arg_eq m d main_arg0) (degree0 m d)
    (op1 m d 38 main_arg1 main_v22 _ _ _ rfl) (opR m d 39 main_v22 main_v23 _ _ _ _ rfl) (op0 m d 40 main_c _ _ rfl)
    (op1 m d 41 main_c main_v24 _ _ _ rfl) (op2 m d 42 main_v23 main_v24 main_v25 _ _ _ _ rfl)
    (op0 m d 43 main_c_9 _ _ rfl) (op1 m d 44 main_c_9 main_v26 _ _ _ rfl)
    (op2 m d 45 main_v23 main_v26 main_v27 _ _ _ _ rfl) (op3 m d 46 main_v25 main_v27 main_v23 main_v28 _ _ _ _ _ rfl)
    (op1 m d 47 main_v28 main_v29 _ _ _ rfl) (op2 m d 48 main_arg0 main_v29 main_v30 _ _ _ _ rfl)
    (op1 m d 49 main_arg2 main_v31 _ _ _ rfl) (opR m d 50 main_v31 main_v32 _ _ _ _ rfl) (op0 m d 51 main_cst_10 _ _ rfl)
    (op1 m d 52 main_cst_10 main_v33 _ _ _ rfl) (op1 m d 53 main_v32 main_v34 _ _ _ rfl)
    (op3 m d 54 main_v33 main_v34 main_v30 main_v35 _ _ _ _ _ rfl) (op1 m d 55 main_v6 main_v36 _ _ _ rfl)
    (op1 m d 56 main_v36 main_v37 _ _ _ rfl) (op2 m d 57 main_v35 main_v37 main_v38 _ _ _ _ rfl)

theorem nb0_1 :
    after (ops (F := Ideal)) (launchContents m d) (Proc.devRef .tc main_v69)
      = Cert.Sage.nbRef (m ((d.tc : Thread nD τ).loc main_arg0)) (Cert.KernelIdeal.Terms.edgeRow1 (m ((d.tc : Thread nD τ).loc main_arg1)))
          (Cert.KernelIdeal.Terms.edgeRow1 (m ((d.tc : Thread nD τ).loc main_arg2))) :=
  nb_chain slices_S3x600000_S1x600000_1_0 (arg_eq m d main_arg1) (arg_eq m d main_arg2) (arg_eq m d main_arg0) (degree1 m d)
    (op1 m d 74 main_arg1 main_v53 _ _ _ rfl) (opR m d 75 main_v53 main_v54 _ _ _ _ rfl) (op0 m d 76 main_c_11 _ _ rfl)
    (op1 m d 77 main_c_11 main_v55 _ _ _ rfl) (op2 m d 78 main_v54 main_v55 main_v56 _ _ _ _ rfl)
    (op0 m d 79 main_c_12 _ _ rfl) (op1 m d 80 main_c_12 main_v57 _ _ _ rfl)
    (op2 m d 81 main_v54 main_v57 main_v58 _ _ _ _ rfl) (op3 m d 82 main_v56 main_v58 main_v54 main_v59 _ _ _ _ _ rfl)
    (op1 m d 83 main_v59 main_v60 _ _ _ rfl) (op2 m d 84 main_arg0 main_v60 main_v61 _ _ _ _ rfl)
    (op1 m d 85 main_arg2 main_v62 _ _ _ rfl) (opR m d 86 main_v62 main_v63 _ _ _ _ rfl) (op0 m d 87 main_cst_13 _ _ rfl)
    (op1 m d 88 main_cst_13 main_v64 _ _ _ rfl) (op1 m d 89 main_v63 main_v65 _ _ _ rfl)
    (op3 m d 90 main_v64 main_v65 main_v61 main_v66 _ _ _ _ _ rfl) (op1 m d 91 main_v13 main_v67 _ _ _ rfl)
    (op1 m d 92 main_v67 main_v68 _ _ _ rfl) (op2 m d 93 main_v66 main_v68 main_v69 _ _ _ _ rfl)

theorem nb0_2 :
    after (ops (F := Ideal)) (launchContents m d) (Proc.devRef .tc main_v100)
      = Cert.Sage.nbRef (m ((d.tc : Thread nD τ).loc main_arg0)) (Cert.KernelIdeal.Terms.edgeRow2 (m ((d.tc : Thread nD τ).loc main_arg1)))
          (Cert.KernelIdeal.Terms.edgeRow2 (m ((d.tc : Thread nD τ).loc main_arg2))) :=
  nb_chain slices_S3x600000_S1x600000_2_0 (arg_eq m d main_arg1) (arg_eq m d main_arg2) (arg_eq m d main_arg0) (degree2 m d)
    (op1 m d 110 main_arg1 main_v84 _ _ _ rfl) (opR m d 111 main_v84 main_v85 _ _ _ _ rfl) (op0 m d 112 main_c_14 _ _ rfl)
    (op1 m d 113 main_c_14 main_v86 _ _ _ rfl) (op2 m d 114 main_v85 main_v86 main_v87 _ _ _ _ rfl)
    (op0 m d 115 main_c_15 _ _ rfl) (op1 m d 116 main_c_15 main_v88 _ _ _ rfl)
    (op2 m d 117 main_v85 main_v88 main_v89 _ _ _ _ rfl) (op3 m d 118 main_v87 main_v89 main_v85 main_v90 _ _ _ _ _ rfl)
    (op1 m d 119 main_v90 main_v91 _ _ _ rfl) (op2 m d 120 main_arg0 main_v91 main_v92 _ _ _ _ rfl)
    (op1 m d 121 main_arg2 main_v93 _ _ _ rfl) (opR m d 122 main_v93 main_v94 _ _ _ _ rfl)
    (op0 m d 123 main_cst_16 _ _ rfl) (op1 m d 124 main_cst_16 main_v95 _ _ _ rfl)
    (op1 m d 125 main_v94 main_v96 _ _ _ rfl) (op3 m d 126 main_v95 main_v96 main_v92 main_v97 _ _ _ _ _ rfl)
    (op1 m d 127 main_v20 main_v98 _ _ _ rfl) (op1 m d 128 main_v98 main_v99 _ _ _ rfl)
    (op2 m d 129 main_v97 main_v99 main_v100 _ _ _ _ rfl)

theorem nb1_0 :
    after (ops (F := Ideal)) (launchContents m d) (Proc.devRef .tc main_v161)
      = Cert.Sage.nbRef (after (ops (F := Ideal)) (launchContents m d) (Proc.devRef .tc main_v143)) (Cert.KernelIdeal.Terms.edgeRow0 (m ((d.tc : Thread nD τ).loc main_arg1)))
          (Cert.KernelIdeal.Terms.edgeRow0 (m ((d.tc : Thread nD τ).loc main_arg2))) :=
  nb_chain slices_S3x600000_S1x600000_0_0 (arg_eq m d main_arg1) (arg_eq m d main_arg2) rfl (degree0 m d)
    (op1 m d 182 main_arg1 main_v145 _ _ _ rfl) (opR m d 183 main_v145 main_v146 _ _ _ _ rfl)
    (op0 m d 184 main_c_23 _ _ rfl) (op1 m d 185 main_c_23 main_v147 _ _ _ rfl)
    (op2 m d 186 main_v146 main_v147 main_v148 _ _ _ _ rfl) (op0 m d 187 main_c_24 _ _ rfl)
    (op1 m d 188 main_c_24 main_v149 _ _ _ rfl) (op2 m d 189 main_v146 main_v149 main_v150 _ _ _ _ rfl)
    (op3 m d 190 main_v148 main_v150 main_v146 main_v151 _ _ _ _ _ rfl) (op1 m d 191 main_v151 main_v152 _ _ _ rfl)
    (op2 m d 192 main_v143 main_v152 main_v153 _ _ _ _ rfl) (op1 m d 193 main_arg2 main_v154 _ _ _ rfl)
    (opR m d 194 main_v154 main_v155 _ _ _ _ rfl) (op0 m d 195 main_cst_25 _ _ rfl)
    (op1 m d 196 main_cst_25 main_v156 _ _ _ rfl) (op1 m d 197 main_v155 main_v157 _ _ _ rfl)
    (op3 m d 198 main_v156 main_v157 main_v153 main_v158 _ _ _ _ _ rfl) (op1 m d 199 main_v6 main_v159 _ _ _ rfl)
    (op1 m d 200 main_v159 main_v160 _ _ _ rfl) (op2 m d 201 main_v158 main_v160 main_v161 _ _ _ _ rfl)

theorem nb1_1 :
    after (ops (F := Ideal)) (launchContents m d) (Proc.devRef .tc main_v192)
      = Cert.Sage.nbRef (after (ops (F := Ideal)) (launchContents m d) (Proc.devRef .tc main_v143)) (Cert.KernelIdeal.Terms.edgeRow1 (m ((d.tc : Thread nD τ).loc main_arg1)))
          (Cert.KernelIdeal.Terms.edgeRow1 (m ((d.tc : Thread nD τ).loc main_arg2))) :=
  nb_chain slices_S3x600000_S1x600000_1_0 (arg_eq m d main_arg1) (arg_eq m d main_arg2) rfl (degree1 m d)
    (op1 m d 218 main_arg1 main_v176 _ _ _ rfl) (opR m d 219 main_v176 main_v177 _ _ _ _ rfl)
    (op0 m d 220 main_c_26 _ _ rfl) (op1 m d 221 main_c_26 main_v178 _ _ _ rfl)
    (op2 m d 222 main_v177 main_v178 main_v179 _ _ _ _ rfl) (op0 m d 223 main_c_27 _ _ rfl)
    (op1 m d 224 main_c_27 main_v180 _ _ _ rfl) (op2 m d 225 main_v177 main_v180 main_v181 _ _ _ _ rfl)
    (op3 m d 226 main_v179 main_v181 main_v177 main_v182 _ _ _ _ _ rfl) (op1 m d 227 main_v182 main_v183 _ _ _ rfl)
    (op2 m d 228 main_v143 main_v183 main_v184 _ _ _ _ rfl) (op1 m d 229 main_arg2 main_v185 _ _ _ rfl)
    (opR m d 230 main_v185 main_v186 _ _ _ _ rfl) (op0 m d 231 main_cst_28 _ _ rfl)
    (op1 m d 232 main_cst_28 main_v187 _ _ _ rfl) (op1 m d 233 main_v186 main_v188 _ _ _ rfl)
    (op3 m d 234 main_v187 main_v188 main_v184 main_v189 _ _ _ _ _ rfl) (op1 m d 235 main_v13 main_v190 _ _ _ rfl)
    (op1 m d 236 main_v190 main_v191 _ _ _ rfl) (op2 m d 237 main_v189 main_v191 main_v192 _ _ _ _ rfl)

theorem nb1_2 :
    after (ops (F := Ideal)) (launchContents m d) (Proc.devRef .tc main_v223)
      = Cert.Sage.nbRef (after (ops (F := Ideal)) (launchContents m d) (Proc.devRef .tc main_v143)) (Cert.KernelIdeal.Terms.edgeRow2 (m ((d.tc : Thread nD τ).loc main_arg1)))
          (Cert.KernelIdeal.Terms.edgeRow2 (m ((d.tc : Thread nD τ).loc main_arg2))) :=
  nb_chain slices_S3x600000_S1x600000_2_0 (arg_eq m d main_arg1) (arg_eq m d main_arg2) rfl (degree2 m d)
    (op1 m d 254 main_arg1 main_v207 _ _ _ rfl) (opR m d 255 main_v207 main_v208 _ _ _ _ rfl)
    (op0 m d 256 main_c_29 _ _ rfl) (op1 m d 257 main_c_29 main_v209 _ _ _ rfl)
    (op2 m d 258 main_v208 main_v209 main_v210 _ _ _ _ rfl) (op0 m d 259 main_c_30 _ _ rfl)
    (op1 m d 260 main_c_30 main_v211 _ _ _ rfl) (op2 m d 261 main_v208 main_v211 main_v212 _ _ _ _ rfl)
    (op3 m d 262 main_v210 main_v212 main_v208 main_v213 _ _ _ _ _ rfl) (op1 m d 263 main_v213 main_v214 _ _ _ rfl)
    (op2 m d 264 main_v143 main_v214 main_v215 _ _ _ _ rfl) (op1 m d 265 main_arg2 main_v216 _ _ _ rfl)
    (opR m d 266 main_v216 main_v217 _ _ _ _ rfl) (op0 m d 267 main_cst_31 _ _ rfl)
    (op1 m d 268 main_cst_31 main_v218 _ _ _ rfl) (op1 m d 269 main_v217 main_v219 _ _ _ rfl)
    (op3 m d 270 main_v218 main_v219 main_v215 main_v220 _ _ _ _ _ rfl) (op1 m d 271 main_v20 main_v221 _ _ _ rfl)
    (op1 m d 272 main_v221 main_v222 _ _ _ rfl) (op2 m d 273 main_v220 main_v222 main_v223 _ _ _ _ rfl)

theorem nb2_0 :
    after (ops (F := Ideal)) (launchContents m d) (Proc.devRef .tc main_v284)
      = Cert.Sage.nbRef (after (ops (F := Ideal)) (launchContents m d) (Proc.devRef .tc main_v266)) (Cert.KernelIdeal.Terms.edgeRow0 (m ((d.tc : Thread nD τ).loc main_arg1)))
          (Cert.KernelIdeal.Terms.edgeRow0 (m ((d.tc : Thread nD τ).loc main_arg2))) :=
  nb_chain slices_S3x600000_S1x600000_0_0 (arg_eq m d main_arg1) (arg_eq m d main_arg2) rfl (degree0 m d)
    (op1 m d 326 main_arg1 main_v268 _ _ _ rfl) (opR m d 327 main_v268 main_v269 _ _ _ _ rfl)
    (op0 m d 328 main_c_38 _ _ rfl) (op1 m d 329 main_c_38 main_v270 _ _ _ rfl)
    (op2 m d 330 main_v269 main_v270 main_v271 _ _ _ _ rfl) (op0 m d 331 main_c_39 _ _ rfl)
    (op1 m d 332 main_c_39 main_v272 _ _ _ rfl) (op2 m d 333 main_v269 main_v272 main_v273 _ _ _ _ rfl)
    (op3 m d 334 main_v271 main_v273 main_v269 main_v274 _ _ _ _ _ rfl) (op1 m d 335 main_v274 main_v275 _ _ _ rfl)
    (op2 m d 336 main_v266 main_v275 main_v276 _ _ _ _ rfl) (op1 m d 337 main_arg2 main_v277 _ _ _ rfl)
    (opR m d 338 main_v277 main_v278 _ _ _ _ rfl) (op0 m d 339 main_cst_40 _ _ rfl)
    (op1 m d 340 main_cst_40 main_v279 _ _ _ rfl) (op1 m d 341 main_v278 main_v280 _ _ _ rfl)
    (op3 m d 342 main_v279 main_v280 main_v276 main_v281 _ _ _ _ _ rfl) (op1 m d 343 main_v6 main_v282 _ _ _ rfl)
    (op1 m d 344 main_v282 main_v283 _ _ _ rfl) (op2 m d 345 main_v281 main_v283 main_v284 _ _ _ _ rfl)

theorem nb2_1 :
    after (ops (F := Ideal)) (launchContents m d) (Proc.devRef .tc main_v314)
      = Cert.Sage.nbRef (after (ops (F := Ideal)) (launchContents m d) (Proc.devRef .tc main_v266)) (Cert.KernelIdeal.Terms.edgeRow1 (m ((d.tc : Thread nD τ).loc main_arg1)))
          (Cert.KernelIdeal.Terms.edgeRow1 (m ((d.tc : Thread nD τ).loc main_arg2))) :=
  nb_chain slices_S3x600000_S1x600000_1_0 (arg_eq m d main_arg1) (arg_eq m d main_arg2) rfl (degree1 m d)
    (op1 m d 359 main_arg1 main_v298 _ _ _ rfl) (opR m d 360 main_v298 main_v299 _ _ _ _ rfl)
    (op0 m d 361 main_c_41 _ _ rfl) (op1 m d 362 main_c_41 main_v300 _ _ _ rfl)
    (op2 m d 363 main_v299 main_v300 main_v301 _ _ _ _ rfl) (op0 m d 364 main_c_42 _ _ rfl)
    (op1 m d 365 main_c_42 main_v302 _ _ _ rfl) (op2 m d 366 main_v299 main_v302 main_v303 _ _ _ _ rfl)
    (op3 m d 367 main_v301 main_v303 main_v299 main_v304 _ _ _ _ _ rfl) (op1 m d 368 main_v304 main_v305 _ _ _ rfl)
    (op2 m d 369 main_v266 main_v305 main_v306 _ _ _ _ rfl) (op1 m d 370 main_arg2 main_v307 _ _ _ rfl)
    (opR m d 371 main_v307 main_v308 _ _ _ _ rfl) (op0 m d 372 main_cst_43 _ _ rfl)
    (op1 m d 373 main_cst_43 main_v309 _ _ _ rfl) (op1 m d 374 main_v308 main_v310 _ _ _ rfl)
    (op3 m d 375 main_v309 main_v310 main_v306 main_v311 _ _ _ _ _ rfl) (op1 m d 376 main_v13 main_v312 _ _ _ rfl)
    (op1 m d 377 main_v312 main_v313 _ _ _ rfl) (op2 m d 378 main_v311 main_v313 main_v314 _ _ _ _ rfl)

theorem nb2_2 :
    after (ops (F := Ideal)) (launchContents m d) (Proc.devRef .tc main_v344)
      = Cert.Sage.nbRef (after (ops (F := Ideal)) (launchContents m d) (Proc.devRef .tc main_v266)) (Cert.KernelIdeal.Terms.edgeRow2 (m ((d.tc : Thread nD τ).loc main_arg1)))
          (Cert.KernelIdeal.Terms.edgeRow2 (m ((d.tc : Thread nD τ).loc main_arg2))) :=
  nb_chain slices_S3x600000_S1x600000_2_0 (arg_eq m d main_arg1) (arg_eq m d main_arg2) rfl (degree2 m d)
    (op1 m d 392 main_arg1 main_v328 _ _ _ rfl) (opR m d 393 main_v328 main_v329 _ _ _ _ rfl)
    (op0 m d 394 main_c_44 _ _ rfl) (op1 m d 395 main_c_44 main_v330 _ _ _ rfl)
    (op2 m d 396 main_v329 main_v330 main_v331 _ _ _ _ rfl) (op0 m d 397 main_c_45 _ _ rfl)
    (op1 m d 398 main_c_45 main_v332 _ _ _ rfl) (op2 m d 399 main_v329 main_v332 main_v333 _ _ _ _ rfl)
    (op3 m d 400 main_v331 main_v333 main_v329 main_v334 _ _ _ _ _ rfl) (op1 m d 401 main_v334 main_v335 _ _ _ rfl)
    (op2 m d 402 main_v266 main_v335 main_v336 _ _ _ _ rfl) (op1 m d 403 main_arg2 main_v337 _ _ _ rfl)
    (opR m d 404 main_v337 main_v338 _ _ _ _ rfl) (op0 m d 405 main_cst_46 _ _ rfl)
    (op1 m d 406 main_cst_46 main_v339 _ _ _ rfl) (op1 m d 407 main_v338 main_v340 _ _ _ rfl)
    (op3 m d 408 main_v339 main_v340 main_v336 main_v341 _ _ _ _ _ rfl) (op1 m d 409 main_v20 main_v342 _ _ _ rfl)
    (op1 m d 410 main_v342 main_v343 _ _ _ rfl) (op2 m d 411 main_v341 main_v343 main_v344 _ _ _ _ rfl)

end Cert.ReferenceIdeal.Layers

end
-- ==== Proof.RefLayer.lean ====
import proofs.«429645_j52570399703510_2_alg».proof.Proof.RefOps
import proofs.«429645_j52570399703510_2_alg».proof.Proof.Network
import proofs.«429645_j52570399703510_2_alg».proof.Proof.RefNeigh
import Idealize.ShloMosaic.Lib.Pipeline.Value
import Idealize.ShloMosaic.Lib.ValueLayout
import Idealize.ShloMosaic.Lib.IdealHost
import Idealize.ShloMosaic.Lib.StackMember
import Idealize.ShloMosaic.Lib.KernelVsHost
import Idealize.ShloMosaic.PureOps.Ideal.Laws

noncomputable section

namespace Cert.ReferenceIdeal.Layers

open Cert.ReferenceIdeal Cert.ReferenceIdeal.HostRun Idealize.ShloMosaic Idealize.ShloMosaic.TcCoe Idealize.SL.Sem
open Idealize.ShloMosaic.StableHlo Idealize.ShloMosaic.ValueIdx
open Cert.ReferenceIdeal.Facts₀ Cert.Sage Cert.KernelIdeal.Terms

namespace Layer

section Reading

variable {α : Type}

/-- Slice `(l, o)` of a weight table as a matrix: entry `(j, q)` is the table's entry `(l, o, j, q)`. -/
theorem wts_at (W : S3x3x128x128.Idx → α) (l o : Fin 3) (hs : S3x3x128x128.Slices ![l.val, o.val, 0, 0] S1x1x128x128)
    (j q : Fin 128) :
    shapeCast S128x128 (extractStridedSlice S1x1x128x128 ![l.val, o.val, 0, 0] W hs) shapeCasts_S1x1x128x128_S128x128 (ix2 j q)
      = W (ix4 l o j q) := by
  refine (shapeCast_apply _ shapeCasts_S1x1x128x128_S128x128 (ix2 j q) (ix4 (0 : Fin 1) (0 : Fin 1) j q) ?_).trans ?_
  · rw [Shape.rowMajor_val_four, Shape.rowMajor_val_two]
    show ((0 * 1 + 0) * 128 + j.val) * 128 + q.val = j.val * 128 + q.val
    omega
  · exact extractStridedSlice_apply _ W hs _ (ix4 l o j q) fun a => match a with
      | ⟨0, _⟩ => rfl
      | ⟨1, _⟩ => rfl
      | ⟨2, _⟩ => (Nat.zero_add _).symm
      | ⟨3, _⟩ => (Nat.zero_add _).symm

/-- Slice `(l, o)` of the bias table as a vector: entry `q` is the table's entry `(l, o, q)`. -/
theorem bias_at (B : S3x3x128.Idx → α) (l o : Fin 3) (hs : S3x3x128.Slices ![l.val, o.val, 0] S1x1x128) (q : Fin 128) :
    shapeCast S128 (extractStridedSlice S1x1x128 ![l.val, o.val, 0] B hs) shapeCasts_S1x1x128_S128 (ix1 q) = B (ix3 l o q) := by
  refine (shapeCast_apply _ shapeCasts_S1x1x128_S128 (ix1 q) (ix3 (0 : Fin 1) (0 : Fin 1) q) ?_).trans ?_
  · rw [Shape.rowMajor_val_three, Shape.rowMajor_val_one]
    show (0 * 1 + 0) * 128 + q.val = q.val
    omega
  · exact extractStridedSlice_apply _ B hs _ (ix3 l o q) fun a => match a with
      | ⟨0, _⟩ => rfl
      | ⟨1, _⟩ => rfl
      | ⟨2, _⟩ => (Nat.zero_add _).symm

/-- Row `l` of a per-feature table as a vector: entry `q` is the table's entry `(l, q)`. -/
theorem feat_at (G : S3x128.Idx → α) (l : Fin 3) (hs : S3x128.Slices ![l.val, 0] S1x128) (q : Fin 128) :
    shapeCast S128 (extractStridedSlice S1x128 ![l.val, 0] G hs) shapeCasts_S1x128_S128 (ix1 q) = G (ix2 l q) :=
  (shapeCast_1a_a_apply _ _ q).trans (slice2_axis0_apply l.val G hs 0 q l rfl)

/-- A vector laid out as a row and repeated over the nodes reads, at node `n` and feature `q`, its entry `q`. -/
theorem row_at (v : S128.Idx → α) (n : Fin 100000) (q : Fin 128) :
    broadcastInDim S100000x128 ![0, 1] bcast_S1x128_S100000x128_0_1 (broadcastInDim S1x128 ![1] bcast_S128_S1x128_1 v)
      (ix2 n q) = v (ix1 q) :=
  (broadcastInDim_oneRow_apply _ _ n q).trans
    (broadcastInDim_apply _ bcast_S128_S1x128_1 v _ (ix1 q) fun a => match a with | ⟨0, _⟩ => rfl)

end Reading

/-- Node features times a matrix: entry `(n, q)` is the sum over `j` of `X[n, j] · M[j, q]`. -/
theorem dot_at (X : FVec Ideal S100000x128 .f32) (M : FVec Ideal S128x128 .f32) (n : Fin 100000) (q : Fin 128) :
    Host.dotGeneral dot_S100000x128_S128x128_S100000x128_1_0_0_1_n_n none X M (ix2 n q)
      = ∑ j : Fin 128, X (ix2 n j) * M (ix2 j q) :=
  StackMember.dotGeneral_plain_apply none X M n q

/-- The sum over the nodes started from the zero word. -/
theorem sum_at (X : FVec Ideal S100000x128 .f32) (q : Fin 128) :
    Host.reduceAdd X (constant (F := Ideal) S_ .f32 0x00000000#32) reducesTo_S100000x128_S128_d0 h_S_ (ix1 q)
      = ∑ n : Fin 100000, X (ix2 n q) := by
  rw [hostReduceAdd_apply, Ideal.hostReduceAdd_single reducesTo_S100000x128_S128_d0 (by decide), constant_apply,
    Ideal.ofBits_zero_f32, zero_add]
  exact Finset.sum_congr rfl fun k _ =>
    congrArg X (funext fun a => Fin.ext (by match a with | ⟨0, _⟩ => rfl | ⟨1, _⟩ => rfl))

/-- Two arrays over nodes and features that agree at every node and feature are equal. -/
theorem ext2 {α : Type} {f g : S100000x128.Idx → α} (h : ∀ n q, f (ix2 n q) = g (ix2 n q)) : f = g :=
  funext fun i => eq_ix2 i ▸ h (i 0) (i 1)

theorem sqrt_at {s : Shape} (a : FVec Ideal s .f32) (i : s.Idx) : Host.sqrt a i = Ideal.sqrt (a i) := rfl

section Chains

variable {h nb : FVec Ideal S100000x128 .f32} {W3 W4 : FVec Ideal S3x3x128x128 .f32} {B5 : FVec Ideal S3x3x128 .f32}

/-- One edge type before the activation: the two products with its slices of the weight tables, plus its bias row. -/
theorem msg_chain (l o : Fin 3) {hs4 : S3x3x128x128.Slices ![l.val, o.val, 0, 0] S1x1x128x128}
    {hs3 : S3x3x128.Slices ![l.val, o.val, 0] S1x1x128} {s3 s4 : FVec Ideal S1x1x128x128 .f32}
    {w3 w4 : FVec Ideal S128x128 .f32} {d3 d4 a b4 c : FVec Ideal S100000x128 .f32} {b1 : FVec Ideal S1x1x128 .f32}
    {b2 : FVec Ideal S128 .f32} {b3 : FVec Ideal S1x128 .f32}
    (e1 : s3 = extractStridedSlice S1x1x128x128 ![l.val, o.val, 0, 0] W3 hs4)
    (e2 : w3 = shapeCast S128x128 s3 shapeCasts_S1x1x128x128_S128x128)
    (e3 : d3 = Host.dotGeneral dot_S100000x128_S128x128_S100000x128_1_0_0_1_n_n none h w3)
    (e4 : s4 = extractStridedSlice S1x1x128x128 ![l.val, o.val, 0, 0] W4 hs4)
    (e5 : w4 = shapeCast S128x128 s4 shapeCasts_S1x1x128x128_S128x128)
    (e6 : d4 = Host.dotGeneral dot_S100000x128_S128x128_S100000x128_1_0_0_1_n_n none nb w4)
    (e7 : a = addf d3 d4)
    (e8 : b1 = extractStridedSlice S1x1x128 ![l.val, o.val, 0] B5 hs3)
    (e9 : b2 = shapeCast S128 b1 shapeCasts_S1x1x128_S128)
    (e10 : b3 = broadcastInDim S1x128 ![1] bcast_S128_S1x128_1 b2)
    (e11 : b4 = broadcastInDim S100000x128 ![0, 1] bcast_S1x128_S100000x128_0_1 b3)
    (e12 : c = addf a b4) (n : Fin 100000) (q : Fin 128) :
    c (ix2 n q) = msg false h nb (weightsOf W3 l) (weightsOf W4 l) (biasOf B5 l) o n q := by
  subst e1 e2 e3 e4 e5 e6 e7 e8 e9 e10 e11 e12
  rw [addf_apply, addf_apply, dot_at, dot_at, row_at, bias_at]
  simp only [wts_at]
  rfl

variable {Ws Wn : Wts.Idx → EReal} {b : Bias.Idx → EReal}

/-- The activation: the maximum with the zero word spread over the nodes. -/
theorem relu_chain {o : Fin 3} {c z' r : FVec Ideal S100000x128 .f32} {z : FVec Ideal S_ .f32}
    (hc : ∀ n q, c (ix2 n q) = msg false h nb Ws Wn b o n q) (e1 : z = constant (F := Ideal) S_ .f32 0x00000000#32)
    (e2 : z' = broadcastInDim S100000x128 ![] bcast_S_S100000x128 z) (e3 : r = maximumf c z') (n : Fin 100000) (q : Fin 128) :
    r (ix2 n q) = msg true h nb Ws Wn b o n q := by
  subst e1 e2 e3
  rw [maximumf_apply, hc, broadcastInDim_scalar_apply, constant_apply, Ideal.ofBits_zero_f32]
  rfl

/-- The three contributions added, one after the other, onto the zero word spread over the nodes. -/
theorem acc_chain {relu : Bool} {nb0 nb1 nb2 z' r0 r1 r2 a0 a1 a : FVec Ideal S100000x128 .f32} {z : FVec Ideal S_ .f32}
    (e1 : z = constant (F := Ideal) S_ .f32 0x00000000#32) (e2 : z' = broadcastInDim S100000x128 ![] bcast_S_S100000x128 z)
    (h0 : ∀ n q, r0 (ix2 n q) = msg relu h nb0 Ws Wn b 0 n q) (e3 : a0 = addf z' r0)
    (h1 : ∀ n q, r1 (ix2 n q) = msg relu h nb1 Ws Wn b 1 n q) (e4 : a1 = addf a0 r1)
    (h2 : ∀ n q, r2 (ix2 n q) = msg relu h nb2 Ws Wn b 2 n q) (e5 : a = addf a1 r2) :
    a = acc relu h nb0 nb1 nb2 Ws Wn b := by
  subst e1 e2 e3 e4 e5
  refine ext2 fun n q => ?_
  rw [addf_apply, addf_apply, addf_apply, broadcastInDim_scalar_apply, constant_apply, Ideal.ofBits_zero_f32, zero_add, h0, h1,
    h2]
  rfl

variable {a : FVec Ideal S100000x128 .f32} {mu v : FVec Ideal S128 .f32}

/-- The mean over the nodes: the sum from the zero word, divided by the number of nodes spread over the features. -/
theorem mean_chain {z c : FVec Ideal S_ .f32} {s k : FVec Ideal S128 .f32}
    (e1 : z = constant (F := Ideal) S_ .f32 0x00000000#32) (e2 : s = Host.reduceAdd a z reducesTo_S100000x128_S128_d0 h_S_)
    (e3 : c = constant (F := Ideal) S_ .f32 0x47C35000#32) (e4 : k = broadcastInDim S128 ![] bcast_S_S128 c)
    (e5 : mu = Host.divf s k) (q : Fin 128) : mu (ix1 q) = mean a q := by
  subst e1 e2 e3 e4 e5
  rw [hostDivf_apply, sum_at, broadcastInDim_scalar_apply]
  rfl

/-- The second moment about the mean row: the row repeated over the nodes, subtracted, squared, summed and divided. -/
theorem var_chain {m1 : FVec Ideal S1x128 .f32} {m2 d1 sq : FVec Ideal S100000x128 .f32} {z c : FVec Ideal S_ .f32}
    {s k : FVec Ideal S128 .f32} (e1 : m1 = broadcastInDim S1x128 ![1] bcast_S128_S1x128_1 mu)
    (e2 : m2 = broadcastInDim S100000x128 ![0, 1] bcast_S1x128_S100000x128_0_1 m1) (e3 : d1 = subf a m2) (e4 : sq = mulf d1 d1)
    (e5 : z = constant (F := Ideal) S_ .f32 0x00000000#32) (e6 : s = Host.reduceAdd sq z reducesTo_S100000x128_S128_d0 h_S_)
    (e7 : c = constant (F := Ideal) S_ .f32 0x47C35000#32) (e8 : k = broadcastInDim S128 ![] bcast_S_S128 c)
    (e9 : v = Host.divf s k) (q : Fin 128) : v (ix1 q) = var a (fun c => mu (ix1 c)) q := by
  subst e1 e2 e3 e4 e5 e6 e7 e8 e9
  rw [hostDivf_apply, sum_at, broadcastInDim_scalar_apply, constant_apply, var,
    Finset.sum_congr rfl fun n _ =>
      show mulf (subf a _) (subf a _) (ix2 n q) = (a (ix2 n q) - mu (ix1 q)) * (a (ix2 n q) - mu (ix1 q)) by
        rw [mulf_apply, subf_apply, row_at]]

/-- The normalisation, with row `l` of the two per-feature tables, the mean row and the second-moment row. -/
theorem norm_chain (l : Fin 3) {hs : S3x128.Slices ![l.val, 0] S1x128} {G Bt : FVec Ideal S3x128 .f32}
    {g1 t1 m1 g3 sd1 t3 : FVec Ideal S1x128 .f32} {g2 e ve sd t2 : FVec Ideal S128 .f32}
    {m2 d g4 p sd2 qt t4 out : FVec Ideal S100000x128 .f32} {c : FVec Ideal S_ .f32}
    (e1 : g1 = extractStridedSlice S1x128 ![l.val, 0] G hs) (e2 : g2 = shapeCast S128 g1 shapeCasts_S1x128_S128)
    (e3 : m1 = broadcastInDim S1x128 ![1] bcast_S128_S1x128_1 mu)
    (e4 : m2 = broadcastInDim S100000x128 ![0, 1] bcast_S1x128_S100000x128_0_1 m1) (e5 : d = subf a m2)
    (e6 : g3 = broadcastInDim S1x128 ![1] bcast_S128_S1x128_1 g2)
    (e7 : g4 = broadcastInDim S100000x128 ![0, 1] bcast_S1x128_S100000x128_0_1 g3) (e8 : p = mulf g4 d)
    (e9 : c = constant (F := Ideal) S_ .f32 0x3727C5AC#32) (e10 : e = broadcastInDim S128 ![] bcast_S_S128 c)
    (e11 : ve = addf v e) (e12 : sd = Host.sqrt ve) (e13 : sd1 = broadcastInDim S1x128 ![1] bcast_S128_S1x128_1 sd)
    (e14 : sd2 = broadcastInDim S100000x128 ![0, 1] bcast_S1x128_S100000x128_0_1 sd1) (e15 : qt = Host.divf p sd2)
    (e16 : t1 = extractStridedSlice S1x128 ![l.val, 0] Bt hs) (e17 : t2 = shapeCast S128 t1 shapeCasts_S1x128_S128)
    (e18 : t3 = broadcastInDim S1x128 ![1] bcast_S128_S1x128_1 t2)
    (e19 : t4 = broadcastInDim S100000x128 ![0, 1] bcast_S1x128_S100000x128_0_1 t3) (e20 : out = addf qt t4)
    (n : Fin 100000) (q : Fin 128) :
    out (ix2 n q) = normAt a (fun c => mu (ix1 c)) (fun c => v (ix1 c)) (featOf G l) (featOf Bt l) n q := by
  subst e1 e2 e3 e4 e5 e6 e7 e8 e9 e10 e11 e12 e13 e14 e15 e16 e17 e18 e19 e20
  rw [addf_apply, hostDivf_apply, mulf_apply, subf_apply, row_at, row_at, row_at, row_at, feat_at, feat_at, sqrt_at,
    addf_apply, broadcastInDim_scalar_apply]
  rfl

end Chains

variable (m : (ℓ : Loc nD τ sig) → Buf (Elt Ideal) ℓ) (d : Dev nD)

section At

/-! The equation of the operation at position `k`, the operation itself read off the list. -/

variable (k : Nat)

theorem at0 {y v hy} (h : (ops (F := Ideal))[k]? = some (nullary y v hy)) (hy' : y.idx.val < 8 + (k + 1) := by decide) :
    fin m d y = v :=
  op0 m d k y v hy (drop_of_get h) hy'

theorem at1 {x y f hx hy} (h : (ops (F := Ideal))[k]? = some (unary x y f hx hy))
    (hy' : y.idx.val < 8 + (k + 1) := by decide) (hx' : x.idx.val < 8 + k := by decide) : fin m d y = f (fin m d x) :=
  op1 m d k x y f hx hy (drop_of_get h) hy' hx'

theorem at2 {a b y f ha hb hy} (h : (ops (F := Ideal))[k]? = some (binary a b y f ha hb hy))
    (hy' : y.idx.val < 8 + (k + 1) := by decide) (ha' : a.idx.val < 8 + k := by decide)
    (hb' : b.idx.val < 8 + k := by decide) : fin m d y = f (fin m d a) (fin m d b) :=
  op2 m d k a b y f ha hb hy (drop_of_get h) hy' ha' hb'

theorem atR {x y he hn hx hy} (h : (ops (F := Ideal))[k]? = some (reshape (Val := Elt Ideal) x y he hn hx hy))
    (hy' : y.idx.val < 8 + (k + 1) := by decide) (hx' : x.idx.val < 8 + k := by decide) :
    fin m d y = fun i => he ▸ shapeCast y.ty.shape (fin m d x) hn i :=
  opR m d k x y he hn hx hy (drop_of_get h) hy' hx'

end At

/-- Edge type `o`'s contribution in layer `l`, from the layer's input and the averaged neighbour features. -/
abbrev msgL (relu : Bool) (l : Fin 3) (h nb : FVec Ideal S100000x128 .f32) : Fin 3 → Fin 100000 → Fin 128 → EReal :=
  msg relu h nb (weightsOf (fin m d main_arg3) l) (weightsOf (fin m d main_arg4) l) (biasOf (fin m d main_arg5) l)

/-- Layer `l`'s summed contributions. -/
abbrev accL (relu : Bool) (l : Fin 3) (h nb0 nb1 nb2 : FVec Ideal S100000x128 .f32) : FVec Ideal S100000x128 .f32 :=
  acc relu h nb0 nb1 nb2 (weightsOf (fin m d main_arg3) l) (weightsOf (fin m d main_arg4) l) (biasOf (fin m d main_arg5) l)

/-- A layer from its pieces: the summed contributions, their mean and second moment rows, and the normalised result. -/
theorem layer_of (relu : Bool) (l : Fin 3) {h h' nb0 nb1 nb2 a out : FVec Ideal S100000x128 .f32} {mu v : FVec Ideal S128 .f32}
    {src dst : Vec Ideal S3x600000 .i32} (hh : h = h') (hn0 : nb0 = nbRef h' (edgeRow0 src) (edgeRow0 dst))
    (hn1 : nb1 = nbRef h' (edgeRow1 src) (edgeRow1 dst)) (hn2 : nb2 = nbRef h' (edgeRow2 src) (edgeRow2 dst))
    (ha : a = accL m d relu l h nb0 nb1 nb2)
    (hmu : ∀ q, mu (ix1 q) = mean a q) (hv : ∀ q, v (ix1 q) = var a (fun c => mu (ix1 c)) q)
    (ho : ∀ n q, out (ix2 n q) = normAt a (fun c => mu (ix1 c)) (fun c => v (ix1 c)) (featOf (fin m d main_arg6) l)
      (featOf (fin m d main_arg7) l) n q) :
    out = layerRef relu l h' src dst (m ((d.tc : Thread nD τ).loc main_arg3)) (m ((d.tc : Thread nD τ).loc main_arg4))
      (m ((d.tc : Thread nD τ).loc main_arg5)) (m ((d.tc : Thread nD τ).loc main_arg6))
      (m ((d.tc : Thread nD τ).loc main_arg7)) := by
  subst hh hn0 hn1 hn2 ha
  refine ext2 fun n q => ?_
  rw [ho, funext hv, funext hmu, accL, arg_eq m d main_arg3, arg_eq m d main_arg4, arg_eq m d main_arg5,
    arg_eq m d main_arg6, arg_eq m d main_arg7]
  rfl

theorem msg0_0 (n : Fin 100000) (q : Fin 128) :
    fin m d main_v51 (ix2 n q) = msgL m d true 0 (fin m d main_arg0) (fin m d main_v38) 0 n q :=
  relu_chain
    (msg_chain 0 0
      (at1 m d 58 rfl) (atR m d 59 rfl) (at2 m d 60 rfl) (at1 m d 61 rfl) (atR m d 62 rfl) (at2 m d 63 rfl) (at2 m d 64 rfl)
      (at1 m d 65 rfl) (atR m d 66 rfl) (at1 m d 67 rfl) (at1 m d 68 rfl) (at2 m d 69 rfl))
    (at0 m d 70 rfl) (at1 m d 71 rfl) (at2 m d 72 rfl) n q

theorem msg0_1 (n : Fin 100000) (q : Fin 128) :
    fin m d main_v82 (ix2 n q) = msgL m d true 0 (fin m d main_arg0) (fin m d main_v69) 1 n q :=
  relu_chain
    (msg_chain 0 1
      (at1 m d 94 rfl) (atR m d 95 rfl) (at2 m d 96 rfl) (at1 m d 97 rfl) (atR m d 98 rfl) (at2 m d 99 rfl) (at2 m d 100 rfl)
      (at1 m d 101 rfl) (atR m d 102 rfl) (at1 m d 103 rfl) (at1 m d 104 rfl) (at2 m d 105 rfl))
    (at0 m d 106 rfl) (at1 m d 107 rfl) (at2 m d 108 rfl) n q

theorem msg0_2 (n : Fin 100000) (q : Fin 128) :
    fin m d main_v113 (ix2 n q) = msgL m d true 0 (fin m d main_arg0) (fin m d main_v100) 2 n q :=
  relu_chain
    (msg_chain 0 2
      (at1 m d 130 rfl) (atR m d 131 rfl) (at2 m d 132 rfl) (at1 m d 133 rfl) (atR m d 134 rfl) (at2 m d 135 rfl)
      (at2 m d 136 rfl) (at1 m d 137 rfl) (atR m d 138 rfl) (at1 m d 139 rfl) (at1 m d 140 rfl) (at2 m d 141 rfl))
    (at0 m d 142 rfl) (at1 m d 143 rfl) (at2 m d 144 rfl) n q

theorem acc0 : fin m d main_v114 = accL m d true 0 (fin m d main_arg0)
    (fin m d main_v38) (fin m d main_v69) (fin m d main_v100) :=
  acc_chain (at0 m d 36 rfl) (at1 m d 37 rfl) (msg0_0 m d) (at2 m d 73 rfl) (msg0_1 m d) (at2 m d 109 rfl)
    (msg0_2 m d) (at2 m d 145 rfl)

theorem mean0 (q : Fin 128) : fin m d main_v117 (ix1 q) = mean (fin m d main_v114) q :=
  mean_chain (at0 m d 146 rfl) (at2 m d 147 rfl) (at0 m d 148 rfl) (at1 m d 149 rfl) (at2 m d 150 rfl) q

theorem var0 (q : Fin 128) :
    fin m d main_v124 (ix1 q) = var (fin m d main_v114) (fun c => fin m d main_v117 (ix1 c)) q :=
  var_chain
    (at1 m d 151 rfl) (at1 m d 152 rfl) (at2 m d 153 rfl) (at2 m d 154 rfl) (at0 m d 155 rfl) (at2 m d 156 rfl)
    (at0 m d 157 rfl) (at1 m d 158 rfl) (at2 m d 159 rfl) q

theorem norm0 (n : Fin 100000) (q : Fin 128) :
    fin m d main_v143 (ix2 n q) = normAt (fin m d main_v114) (fun c => fin m d main_v117 (ix1 c))
      (fun c => fin m d main_v124 (ix1 c)) (featOf (fin m d main_arg6) 0) (featOf (fin m d main_arg7) 0) n q :=
  norm_chain 0
    (at1 m d 160 rfl) (atR m d 161 rfl) (at1 m d 162 rfl) (at1 m d 163 rfl) (at2 m d 164 rfl) (at1 m d 165 rfl)
    (at1 m d 166 rfl) (at2 m d 167 rfl) (at0 m d 168 rfl) (at1 m d 169 rfl) (at2 m d 170 rfl) (at1 m d 171 rfl)
    (at1 m d 172 rfl) (at1 m d 173 rfl) (at2 m d 174 rfl) (at1 m d 175 rfl) (atR m d 176 rfl) (at1 m d 177 rfl)
    (at1 m d 178 rfl) (at2 m d 179 rfl) n q

theorem msg1_0 (n : Fin 100000) (q : Fin 128) :
    fin m d main_v174 (ix2 n q) = msgL m d true 1 (fin m d main_v143) (fin m d main_v161) 0 n q :=
  relu_chain
    (msg_chain 1 0
      (at1 m d 202 rfl) (atR m d 203 rfl) (at2 m d 204 rfl) (at1 m d 205 rfl) (atR m d 206 rfl) (at2 m d 207 rfl)
      (at2 m d 208 rfl) (at1 m d 209 rfl) (atR m d 210 rfl) (at1 m d 211 rfl) (at1 m d 212 rfl) (at2 m d 213 rfl))
    (at0 m d 214 rfl) (at1 m d 215 rfl) (at2 m d 216 rfl) n q

theorem msg1_1 (n : Fin 100000) (q : Fin 128) :
    fin m d main_v205 (ix2 n q) = msgL m d true 1 (fin m d main_v143) (fin m d main_v192) 1 n q :=
  relu_chain
    (msg_chain 1 1
      (at1 m d 238 rfl) (atR m d 239 rfl) (at2 m d 240 rfl) (at1 m d 241 rfl) (atR m d 242 rfl) (at2 m d 243 rfl)
      (at2 m d 244 rfl) (at1 m d 245 rfl) (atR m d 246 rfl) (at1 m d 247 rfl) (at1 m d 248 rfl) (at2 m d 249 rfl))
    (at0 m d 250 rfl) (at1 m d 251 rfl) (at2 m d 252 rfl) n q

theorem msg1_2 (n : Fin 100000) (q : Fin 128) :
    fin m d main_v236 (ix2 n q) = msgL m d true 1 (fin m d main_v143) (fin m d main_v223) 2 n q :=
  relu_chain
    (msg_chain 1 2
      (at1 m d 274 rfl) (atR m d 275 rfl) (at2 m d 276 rfl) (at1 m d 277 rfl) (atR m d 278 rfl) (at2 m d 279 rfl)
      (at2 m d 280 rfl) (at1 m d 281 rfl) (atR m d 282 rfl) (at1 m d 283 rfl) (at1 m d 284 rfl) (at2 m d 285 rfl))
    (at0 m d 286 rfl) (at1 m d 287 rfl) (at2 m d 288 rfl) n q

theorem acc1 : fin m d main_v237 = accL m d true 1 (fin m d main_v143)
    (fin m d main_v161) (fin m d main_v192) (fin m d main_v223) :=
  acc_chain (at0 m d 180 rfl) (at1 m d 181 rfl) (msg1_0 m d) (at2 m d 217 rfl) (msg1_1 m d) (at2 m d 253 rfl)
    (msg1_2 m d) (at2 m d 289 rfl)

theorem mean1 (q : Fin 128) : fin m d main_v240 (ix1 q) = mean (fin m d main_v237) q :=
  mean_chain (at0 m d 290 rfl) (at2 m d 291 rfl) (at0 m d 292 rfl) (at1 m d 293 rfl) (at2 m d 294 rfl) q

theorem var1 (q : Fin 128) :
    fin m d main_v247 (ix1 q) = var (fin m d main_v237) (fun c => fin m d main_v240 (ix1 c)) q :=
  var_chain
    (at1 m d 295 rfl) (at1 m d 296 rfl) (at2 m d 297 rfl) (at2 m d 298 rfl) (at0 m d 299 rfl) (at2 m d 300 rfl)
    (at0 m d 301 rfl) (at1 m d 302 rfl) (at2 m d 303 rfl) q

theorem norm1 (n : Fin 100000) (q : Fin 128) :
    fin m d main_v266 (ix2 n q) = normAt (fin m d main_v237) (fun c => fin m d main_v240 (ix1 c))
      (fun c => fin m d main_v247 (ix1 c)) (featOf (fin m d main_arg6) 1) (featOf (fin m d main_arg7) 1) n q :=
  norm_chain 1
    (at1 m d 304 rfl) (atR m d 305 rfl) (at1 m d 306 rfl) (at1 m d 307 rfl) (at2 m d 308 rfl) (at1 m d 309 rfl)
    (at1 m d 310 rfl) (at2 m d 311 rfl) (at0 m d 312 rfl) (at1 m d 313 rfl) (at2 m d 314 rfl) (at1 m d 315 rfl)
    (at1 m d 316 rfl) (at1 m d 317 rfl) (at2 m d 318 rfl) (at1 m d 319 rfl) (atR m d 320 rfl) (at1 m d 321 rfl)
    (at1 m d 322 rfl) (at2 m d 323 rfl) n q

theorem msg2_0 (n : Fin 100000) (q : Fin 128) :
    fin m d main_v296 (ix2 n q) = msgL m d false 2 (fin m d main_v266) (fin m d main_v284) 0 n q :=
  msg_chain 2 0
    (at1 m d 346 rfl) (atR m d 347 rfl) (at2 m d 348 rfl) (at1 m d 349 rfl) (atR m d 350 rfl) (at2 m d 351 rfl)
    (at2 m d 352 rfl) (at1 m d 353 rfl) (atR m d 354 rfl) (at1 m d 355 rfl) (at1 m d 356 rfl) (at2 m d 357 rfl) n q

theorem msg2_1 (n : Fin 100000) (q : Fin 128) :
    fin m d main_v326 (ix2 n q) = msgL m d false 2 (fin m d main_v266) (fin m d main_v314) 1 n q :=
  msg_chain 2 1
    (at1 m d 379 rfl) (atR m d 380 rfl) (at2 m d 381 rfl) (at1 m d 382 rfl) (atR m d 383 rfl) (at2 m d 384 rfl)
    (at2 m d 385 rfl) (at1 m d 386 rfl) (atR m d 387 rfl) (at1 m d 388 rfl) (at1 m d 389 rfl) (at2 m d 390 rfl) n q

theorem msg2_2 (n : Fin 100000) (q : Fin 128) :
    fin m d main_v356 (ix2 n q) = msgL m d false 2 (fin m d main_v266) (fin m d main_v344) 2 n q :=
  msg_chain 2 2
    (at1 m d 412 rfl) (atR m d 413 rfl) (at2 m d 414 rfl) (at1 m d 415 rfl) (atR m d 416 rfl) (at2 m d 417 rfl)
    (at2 m d 418 rfl) (at1 m d 419 rfl) (atR m d 420 rfl) (at1 m d 421 rfl) (at1 m d 422 rfl) (at2 m d 423 rfl) n q

theorem acc2 : fin m d main_v357 = accL m d false 2 (fin m d main_v266)
    (fin m d main_v284) (fin m d main_v314) (fin m d main_v344) :=
  acc_chain (at0 m d 324 rfl) (at1 m d 325 rfl) (msg2_0 m d) (at2 m d 358 rfl) (msg2_1 m d) (at2 m d 391 rfl)
    (msg2_2 m d) (at2 m d 424 rfl)

theorem mean2 (q : Fin 128) : fin m d main_v360 (ix1 q) = mean (fin m d main_v357) q :=
  mean_chain (at0 m d 425 rfl) (at2 m d 426 rfl) (at0 m d 427 rfl) (at1 m d 428 rfl) (at2 m d 429 rfl) q

theorem var2 (q : Fin 128) :
    fin m d main_v367 (ix1 q) = var (fin m d main_v357) (fun c => fin m d main_v360 (ix1 c)) q :=
  var_chain
    (at1 m d 430 rfl) (at1 m d 431 rfl) (at2 m d 432 rfl) (at2 m d 433 rfl) (at0 m d 434 rfl) (at2 m d 435 rfl)
    (at0 m d 436 rfl) (at1 m d 437 rfl) (at2 m d 438 rfl) q

theorem norm2 (n : Fin 100000) (q : Fin 128) :
    fin m d main_v386 (ix2 n q) = normAt (fin m d main_v357) (fun c => fin m d main_v360 (ix1 c))
      (fun c => fin m d main_v367 (ix1 c)) (featOf (fin m d main_arg6) 2) (featOf (fin m d main_arg7) 2) n q :=
  norm_chain 2
    (at1 m d 439 rfl) (atR m d 440 rfl) (at1 m d 441 rfl) (at1 m d 442 rfl) (at2 m d 443 rfl) (at1 m d 444 rfl)
    (at1 m d 445 rfl) (at2 m d 446 rfl) (at0 m d 447 rfl) (at1 m d 448 rfl) (at2 m d 449 rfl) (at1 m d 450 rfl)
    (at1 m d 451 rfl) (at1 m d 452 rfl) (at2 m d 453 rfl) (at1 m d 454 rfl) (atR m d 455 rfl) (at1 m d 456 rfl)
    (at1 m d 457 rfl) (at2 m d 458 rfl) n q

end Layer

variable (m : (ℓ : Loc nD τ sig) → Buf (Elt Ideal) ℓ) (d : Dev nD)

theorem layer0 :
    after (ops (F := Ideal)) (launchContents m d) (Proc.devRef .tc main_v143)
      = Cert.Sage.layerRef true 0 (m ((d.tc : Thread nD τ).loc main_arg0))
          (m ((d.tc : Thread nD τ).loc main_arg1)) (m ((d.tc : Thread nD τ).loc main_arg2)) (m ((d.tc : Thread nD τ).loc main_arg3))
          (m ((d.tc : Thread nD τ).loc main_arg4)) (m ((d.tc : Thread nD τ).loc main_arg5)) (m ((d.tc : Thread nD τ).loc main_arg6))
          (m ((d.tc : Thread nD τ).loc main_arg7)) :=
  Layer.layer_of m d true 0 (arg_eq m d main_arg0) (nb0_0 m d) (nb0_1 m d) (nb0_2 m d)
    (Layer.acc0 m d) (Layer.mean0 m d) (Layer.var0 m d) (Layer.norm0 m d)

theorem layer1 :
    after (ops (F := Ideal)) (launchContents m d) (Proc.devRef .tc main_v266)
      = Cert.Sage.layerRef true 1 (after (ops (F := Ideal)) (launchContents m d) (Proc.devRef .tc main_v143))
          (m ((d.tc : Thread nD τ).loc main_arg1)) (m ((d.tc : Thread nD τ).loc main_arg2)) (m ((d.tc : Thread nD τ).loc main_arg3))
          (m ((d.tc : Thread nD τ).loc main_arg4)) (m ((d.tc : Thread nD τ).loc main_arg5)) (m ((d.tc : Thread nD τ).loc main_arg6))
          (m ((d.tc : Thread nD τ).loc main_arg7)) :=
  Layer.layer_of m d true 1 rfl (nb1_0 m d) (nb1_1 m d) (nb1_2 m d)
    (Layer.acc1 m d) (Layer.mean1 m d) (Layer.var1 m d) (Layer.norm1 m d)

theorem layer2 :
    after (ops (F := Ideal)) (launchContents m d) (Proc.devRef .tc main_v386)
      = Cert.Sage.layerRef false 2 (after (ops (F := Ideal)) (launchContents m d) (Proc.devRef .tc main_v266))
          (m ((d.tc : Thread nD τ).loc main_arg1)) (m ((d.tc : Thread nD τ).loc main_arg2)) (m ((d.tc : Thread nD τ).loc main_arg3))
          (m ((d.tc : Thread nD τ).loc main_arg4)) (m ((d.tc : Thread nD τ).loc main_arg5)) (m ((d.tc : Thread nD τ).loc main_arg6))
          (m ((d.tc : Thread nD τ).loc main_arg7)) :=
  Layer.layer_of m d false 2 rfl (nb2_0 m d) (nb2_1 m d) (nb2_2 m d)
    (Layer.acc2 m d) (Layer.mean2 m d) (Layer.var2 m d) (Layer.norm2 m d)

end Cert.ReferenceIdeal.Layers

end
-- ==== Proof.Regroup.lean ====
import proofs.«429645_j52570399703510_2_alg».proof.Proof.Spec
import Mathlib.Algebra.BigOperators.Fin
import Mathlib.Logic.Equiv.Fin.Basic

noncomputable section

namespace Cert.Sage

open Idealize.ShloMosaic Idealize.ShloMosaic.ValueIdx

theorem sum_rows_by_blocks {B R : Nat} (hBR : B * R = 100000) (f : Fin 100000 → EReal) :
    ∑ n : Fin 100000, f n = ∑ i : Fin B, ∑ r : Fin R, f (rowOf hBR i r) := by
  let e : Fin B × Fin R ≃ Fin 100000 := finProdFinEquiv.trans (finCongr hBR)
  rw [← Equiv.sum_comp e f, Fintype.sum_prod_type]
  refine Finset.sum_congr rfl fun i _ => Finset.sum_congr rfl fun r _ => ?_
  congr 1
  apply Fin.ext
  simp [e, rowOf, Nat.add_comm]

theorem mean_by_blocks {B R : Nat} (hBR : B * R = 100000) (a : Nodes.Idx → EReal) :
    ofRow (meanOfBlocks (rowBlockSums hBR a)) = mean a := by
  funext c
  rw [mean, sum_rows_by_blocks hBR (fun n => a (ix2 n c))]
  rfl

theorem var_by_blocks {B R : Nat} (hBR : B * R = 100000) (a : Nodes.Idx → EReal) (mu : Row.Idx → EReal) :
    ofRow (meanOfBlocks (rowBlockSquares hBR a mu)) = var a (ofRow mu) := by
  funext c
  rw [var, sum_rows_by_blocks hBR (fun n => (a (ix2 n c) - ofRow mu c) * (a (ix2 n c) - ofRow mu c))]
  rfl

theorem layerByBlocks_eq (relu : Bool) (h nb0 nb1 nb2 : Nodes.Idx → EReal) (Ws Wn : Wts.Idx → EReal)
    (b : Bias.Idx → EReal) (gam bet : Row.Idx → EReal) :
    layerByBlocks relu h nb0 nb1 nb2 Ws Wn b gam bet = layer relu h nb0 nb1 nb2 Ws Wn b (ofRow gam) (ofRow bet) := by
  simp only [layerByBlocks, layer, normRows]
  rw [var_by_blocks, mean_by_blocks]

theorem scaleBy_eq_divideBy (x : Nodes.Idx → EReal) (s : Col.Idx → EReal) (d : PerNode.Idx → EReal)
    (hd : ∀ n : Fin 100000, ∃ r : ℝ, r ≠ 0 ∧ d (ix1 n) = (r : EReal))
    (hs : ∀ n : Fin 100000, s (ix2 n 0) = Ideal.div 1 (d (ix1 n))) :
    scaleBy x s = divideBy x d := by
  funext i
  obtain ⟨r, hr, hdr⟩ := hd (i 0)
  simp only [scaleBy, divideBy]
  rw [hs (i 0), hdr, Ideal.div_coe hr, Ideal.div_coe hr, one_mul]

end Cert.Sage

end
-- ==== Proof.GatherInRange.lean ====
import proofs.«429645_j52570399703510_2_alg».proof.Proof.Network
import Idealize.ShloMosaic.Lib.StableHlo.Predicate
import Idealize.ShloMosaic.Lib.ReduceAll
import Idealize.ShloMosaic.Lib.ValueIdx
import Idealize.ShloMosaic.Lib.ValueLayout

noncomputable section

namespace Cert.Sage

open Cert.KernelIdeal Cert.KernelIdeal.Terms Idealize.ShloMosaic Idealize.ShloMosaic.ValueIdx

def EdgesInRange (s : Vec Ideal S600000 .i32) : Prop :=
  ∀ e : S600000.Idx, (-100000 : Int) ≤ (s e).toInt ∧ (s e).toInt < 100000

theorem sliceRow_apply (k : Fin 3) (src : Vec Ideal S3x600000 .i32) (hsl : S3x600000.Slices ![k.val, 0] S1x600000)
    (hsc : S1x600000.ShapeCasts S600000) (e : S600000.Idx) :
    shapeCast S600000 (extractStridedSlice S1x600000 ![k.val, 0] src hsl) hsc e
      = src (fun a => match a with | ⟨0, _⟩ => k | ⟨1, _⟩ => ⟨(e 0).val, (e 0).isLt⟩) := by
  have he : (e 0).val < 600000 := (e 0).isLt
  refine (shapeCast_apply _ _ e (fun a => match a with | ⟨0, _⟩ => ⟨0, Nat.one_pos⟩ | ⟨1, _⟩ => ⟨(e 0).val, he⟩)
    (by rw [Shape.rowMajor_val_two, Shape.rowMajor_val_one]
        show 0 * 600000 + (e 0).val = (e 0).val
        omega)).trans ?_
  refine extractStridedSlice_apply _ _ _ _ _ (fun a => match a with
    | ⟨0, _⟩ => by show k.val = k.val + 0; omega
    | ⟨1, _⟩ => by show (e 0).val = 0 + (e 0).val; omega)

theorem edgeRow0_inRange (src : Vec Ideal S3x600000 .i32) (h : SrcInRange src) : EdgesInRange (edgeRow0 (F := Ideal) src) := by
  intro e
  have key : edgeRow0 (F := Ideal) src e = src (fun a => match a with | ⟨0, _⟩ => (0 : Fin 3) | ⟨1, _⟩ => ⟨(e 0).val, (e 0).isLt⟩) :=
    sliceRow_apply 0 src _ _ e
  rw [key]
  exact h _
theorem edgeRow1_inRange (src : Vec Ideal S3x600000 .i32) (h : SrcInRange src) : EdgesInRange (edgeRow1 (F := Ideal) src) := by
  intro e
  have key : edgeRow1 (F := Ideal) src e = src (fun a => match a with | ⟨0, _⟩ => (1 : Fin 3) | ⟨1, _⟩ => ⟨(e 0).val, (e 0).isLt⟩) :=
    sliceRow_apply 1 src _ _ e
  rw [key]
  exact h _
theorem edgeRow2_inRange (src : Vec Ideal S3x600000 .i32) (h : SrcInRange src) : EdgesInRange (edgeRow2 (F := Ideal) src) := by
  intro e
  have key : edgeRow2 (F := Ideal) src e = src (fun a => match a with | ⟨0, _⟩ => (2 : Fin 3) | ⟨1, _⟩ => ⟨(e 0).val, (e 0).isLt⟩) :=
    sliceRow_apply 2 src _ _ e
  rw [key]
  exact h _

theorem wrapWord_bounds (x : BitVec 32) (h1 : (-100000 : Int) ≤ x.toInt) (h2 : x.toInt < 100000) :
    0 ≤ (Scalar.select (IntOp.cmpi .slt x 0#32) (IntOp.addi x 100000#32) x).toInt
      ∧ (Scalar.select (IntOp.cmpi .slt x 0#32) (IntOp.addi x 100000#32) x).toInt ≤ 99999 := by
  have h0 : (0#32 : BitVec 32).toInt = 0 := by decide
  have hk : (100000#32 : BitVec 32).toInt = 100000 := by decide
  by_cases hneg : x.toInt < 0
  ·
    have hc : IntOp.cmpi .slt x 0#32 = 1#1 := IntOp.cmpi_slt.2 (by rw [h0]; exact hneg)
    rw [hc, select_one]
    have hadd : (IntOp.addi x 100000#32).toInt = x.toInt + 100000 := by
      show (x + 100000#32).toInt = _
      rw [BitVec.toInt_add, hk]
      apply Int.bmod_eq_of_le <;> omega
    rw [hadd]
    omega
  ·
    have hc : IntOp.cmpi .slt x 0#32 = 0#1 :=
      eq_zero_of_ne_one (fun h => hneg (by have := IntOp.cmpi_slt.1 h; rw [h0] at this; exact this))
    rw [hc, select_zero]
    omega

theorem wrapped_bounds (s : Vec Ideal S600000 .i32) (hs : EdgesInRange s) (e : S600000.Idx) :
    0 ≤ (wrapped (F := Ideal) s e).toInt ∧ (wrapped (F := Ideal) s e).toInt ≤ 99999 :=
  wrapWord_bounds (s e) (hs e).1 (hs e).2

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

theorem inRange_eq_one (c : Vec Ideal S600000x1 .i32) (hc : ∀ i, 0 ≤ (c i).toInt ∧ (c i).toInt ≤ 99999) (e : S600000.Idx) :
    inRange (F := Ideal) c e = 1#1 := by
  unfold inRange
  rw [Host.reduce_eq_foldl]
  refine foldl_andi_ones _ (fun i => ?_) _
  show IntOp.andi (IntOp.cmpi .sge (c i) 0#32) (IntOp.cmpi .sle (c i) 99999#32) = 1#1
  have h0 : (0#32 : BitVec 32).toInt = 0 := by decide
  have hk : (99999#32 : BitVec 32).toInt = 99999 := by decide
  exact IntOp.andi_eq_one.2 ⟨IntOp.cmpi_sge.2 (by rw [h0]; exact (hc i).1), IntOp.cmpi_sle.2 (by rw [hk]; exact (hc i).2)⟩

theorem takeMasked_eq_takePlain (h : Vec Ideal S100000x128 .f32) (s : Vec Ideal S600000 .i32) (hs : EdgesInRange s) :
    takeMasked (F := Ideal) h s = takePlain (F := Ideal) h s := by
  funext j
  have hm : ∀ e, inRange (F := Ideal) (asColumn (wrapped s)) e = 1#1 :=
    inRange_eq_one _ (fun _ => wrapped_bounds s hs _)
  unfold takeMasked
  rw [select_apply]
  have hb : ∀ hb' : S600000.BroadcastsInDim S600000x128 ![0],
      broadcastInDim S600000x128 ![0] hb' (inRange (F := Ideal) (asColumn (wrapped s))) j = 1#1 := fun _ => hm _
  rw [hb, select_one]

end Cert.Sage

end
-- ==== Proof.DegreeFacts.lean ====
import proofs.«429645_j52570399703510_2_alg».proof.Proof.Network
import Idealize.ShloMosaic.PureOps.Ideal.Laws
import Idealize.ShloMosaic.Lib.ValueIdx
import Idealize.ShloMosaic.Lib.ValueLayout
import Idealize.ShloMosaic.Lib.IdealHost

noncomputable section

namespace Cert.Sage

open Cert.KernelIdeal Cert.KernelIdeal.Terms Idealize.ShloMosaic Idealize.ShloMosaic.ValueIdx

theorem sum_one_eq_coe_card {ι : Type} (s : Finset ι) : ∑ _j ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

theorem degree_eq_max (d : Vec Ideal S600000 .i32) (n : Fin 100000) :
    ∃ c : ℕ, degree (F := Ideal) d (ix1 n) = max (1 : EReal) ((c : ℝ) : EReal) := by
  classical
  refine ⟨(Finset.univ.filter (fun j : S600000.Idx =>
    scatter_S100000_S600000x1_S600000_n_0_0_1.resultIdx? j (asColumn d) = some (ix1 n))).card, ?_⟩
  have h : degree (F := Ideal) d (ix1 n) =
      max (Ideal.ofBits .f32 0x3F800000#32)
        (Ideal.ofBits .f32 0x00000000#32 + ∑ _j ∈ Finset.univ.filter (fun j : S600000.Idx =>
          scatter_S100000_S600000x1_S600000_n_0_0_1.resultIdx? j (asColumn d) = some (ix1 n)),
            Ideal.ofBits .f32 0x3F800000#32) := rfl
  rw [h, Ideal.ofBits_one_f32, Ideal.ofBits_zero_f32, zero_add, sum_one_eq_coe_card]

theorem degree_real (d : Vec Ideal S600000 .i32) (n : Fin 100000) :
    ∃ r : ℝ, r ≠ 0 ∧ degree (F := Ideal) d (ix1 n) = (r : EReal) := by
  obtain ⟨c, hc⟩ := degree_eq_max d n
  refine ⟨max 1 (c : ℝ), ?_, ?_⟩
  · have : (1 : ℝ) ≤ max 1 (c : ℝ) := le_max_left _ _
    intro h0; rw [h0] at this; norm_num at this
  · rw [hc]
    rcases le_total (1 : ℝ) (c : ℝ) with h | h
    · rw [max_eq_right h, max_eq_right (by exact_mod_cast h)]
    · rw [max_eq_left h, max_eq_left (by exact_mod_cast h), EReal.coe_one]

theorem recipDegree_apply (d : Vec Ideal S600000 .i32) (n : Fin 100000) :
    recipDegree (F := Ideal) d (ix2 n 0) = Ideal.div 1 (degree (F := Ideal) d (ix1 n)) := by
  have hb : ∀ (h : S100000.BroadcastsInDim S100000x1 ![0]) (v : S100000.Idx → EReal),
      broadcastInDim S100000x1 ![0] h v (ix2 n 0) = v (ix1 n) := by
    intro h v
    apply broadcastInDim_apply
    intro a
    have h1 : a.val < 1 := a.isLt
    have ha : a = ⟨0, Nat.one_pos⟩ := Fin.ext (by show a.val = 0; omega)
    subst ha
    exact (if_neg (by decide)).symm
  unfold recipDegree
  rw [hb, hostDivf_apply, broadcastInDim_scalar_apply, constant_apply, Ideal.ofBits_one_f32]

end Cert.Sage

end
-- ==== Proof.Bridge.lean ====
import proofs.«429645_j52570399703510_2_alg».proof.Proof.Network
import proofs.«429645_j52570399703510_2_alg».proof.Proof.Regroup
import proofs.«429645_j52570399703510_2_alg».proof.Proof.GatherInRange
import proofs.«429645_j52570399703510_2_alg».proof.Proof.DegreeFacts

noncomputable section

namespace Cert.Sage

open Cert.KernelIdeal Cert.KernelIdeal.Terms Idealize.ShloMosaic Idealize.ShloMosaic.ValueIdx

theorem nbKer_eq_nbRef (h : Vec Ideal S100000x128 .f32) (s d : Vec Ideal S600000 .i32) (hs : EdgesInRange s) :
    nbKer h s d = nbRef h s d := by
  unfold nbKer nbRef
  rw [takeMasked_eq_takePlain h s hs]
  exact scaleBy_eq_divideBy _ _ _ (fun n => degree_real d n) (fun n => recipDegree_apply d n)

theorem layerKer_eq_layerRef (relu : Bool) (l : Fin 3) (h : Vec Ideal S100000x128 .f32) (src dst : Vec Ideal S3x600000 .i32)
    (Wself Wneigh : Vec Ideal S3x3x128x128 .f32) (b : Vec Ideal S3x3x128 .f32) (gamma beta : Vec Ideal S3x128 .f32)
    (hsrc : SrcInRange src) :
    layerKer relu l h src dst Wself Wneigh b gamma beta = layerRef relu l h src dst Wself Wneigh b gamma beta := by
  unfold layerKer layerRef
  rw [layerByBlocks_eq, nbKer_eq_nbRef h _ _ (edgeRow0_inRange src hsrc), nbKer_eq_nbRef h _ _ (edgeRow1_inRange src hsrc),
    nbKer_eq_nbRef h _ _ (edgeRow2_inRange src hsrc)]
  rfl

theorem netKer_eq_netRef (x : Vec Ideal S100000x128 .f32) (src dst : Vec Ideal S3x600000 .i32)
    (Wself Wneigh : Vec Ideal S3x3x128x128 .f32) (b : Vec Ideal S3x3x128 .f32) (gamma beta : Vec Ideal S3x128 .f32)
    (hsrc : SrcInRange src) :
    netKer x src dst Wself Wneigh b gamma beta = netRef x src dst Wself Wneigh b gamma beta := by
  unfold netKer netRef
  rw [layerKer_eq_layerRef _ _ _ _ _ _ _ _ _ _ hsrc, layerKer_eq_layerRef _ _ _ _ _ _ _ _ _ _ hsrc,
    layerKer_eq_layerRef _ _ _ _ _ _ _ _ _ _ hsrc]

end Cert.Sage

end
-- ==== Proof.PreRange.lean ====
import proofs.«429645_j52570399703510_2_alg».proof.Defs
import proofs.«429645_j52570399703510_2_alg».proof.Proof.Gen.Pre_finite_inputs
import proofs.«429645_j52570399703510_2_alg».proof.Proof.Network
import Idealize.ShloMosaic.Lib.StableHlo.Predicate
import Idealize.ShloMosaic.Lib.ReduceAll

noncomputable section

namespace Cert.Sage

open Idealize.ShloMosaic Idealize.ShloMosaic.TcCoe Idealize.SL.Sem

theorem srcInRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    SrcInRange (m ((c.tc : Thread Cert.KernelIdeal.nD Cert.KernelIdeal.τ).loc Cert.KernelIdeal.main_arg1)) := by
  intro i
  haveI : Subsingleton Cert.Pre_finite_inputs.S_.Idx := ⟨fun _ _ => funext fun d => d.elim0⟩
  have e := congrFun (h c) ValueIdx.ix0
  dsimp only [Cert.Pre_finite_inputs.fn, Cert.Pre_finite_inputs.fn_part1, Cert.Pre_finite_inputs.fn_part2] at e
  obtain ⟨e1, hlt⟩ := IntOp.andi_eq_one.1 e
  obtain ⟨-, hge⟩ := IntOp.andi_eq_one.1 e1
  have hge' := IntOp.cmpi_sge.1 (Host.reduce_andi_all _ _ _ _ _ hge i)
  have hlt' := IntOp.cmpi_slt.1 (Host.reduce_andi_all _ _ _ _ _ hlt i)
  have k1 : (4294867296#32 : BitVec 32).toInt = -100000 := by decide
  have k2 : (100000#32 : BitVec 32).toInt = 100000 := by decide
  exact ⟨k1 ▸ hge', k2 ▸ hlt'⟩

end Cert.Sage

end
-- ==== Proof.lean ====
/-
  Both programs compute a three-layer graph network. They differ in three places: the kernel replaces gathered rows whose
  index is out of range, which the precondition rules out; it multiplies by one over a degree where the reference divides,
  the same on the extended reals because a degree is a nonzero real; and it sums the normalisation's moments block by
  block, which regroups a finite sum.
-/
import proofs.«429645_j52570399703510_2_alg».proof.Defs
import proofs.«429645_j52570399703510_2_alg».proof.Proof.Gen.Kernel
import proofs.«429645_j52570399703510_2_alg».proof.Proof.Gen.Kernel.Skeleton
import proofs.«429645_j52570399703510_2_alg».proof.Proof.Gen.Kernel.Launch
import proofs.«429645_j52570399703510_2_alg».proof.Proof.Gen.Kernel.Points
import proofs.«429645_j52570399703510_2_alg».proof.Proof.Gen.Kernel.Frame
import proofs.«429645_j52570399703510_2_alg».proof.Proof.Gen.KernelIdeal
import proofs.«429645_j52570399703510_2_alg».proof.Proof.Gen.KernelIdeal.Skeleton
import proofs.«429645_j52570399703510_2_alg».proof.Proof.Gen.KernelIdeal.Launch
import proofs.«429645_j52570399703510_2_alg».proof.Proof.Gen.KernelIdeal.Points
import proofs.«429645_j52570399703510_2_alg».proof.Proof.Gen.KernelIdeal.Frame
import proofs.«429645_j52570399703510_2_alg».proof.Proof.Gen.ReferenceIdeal
import proofs.«429645_j52570399703510_2_alg».proof.Proof.Gen.Pre_finite_inputs
import proofs.«429645_j52570399703510_2_alg».proof.Proof.KernelRun
import proofs.«429645_j52570399703510_2_alg».proof.Proof.KernelLayer
import proofs.«429645_j52570399703510_2_alg».proof.Proof.RefLayer
import proofs.«429645_j52570399703510_2_alg».proof.Proof.Bridge
import proofs.«429645_j52570399703510_2_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.StableHlo

theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W42 (F := Ideal) m ρ c (Proc.devRef .tc Cert.KernelIdeal.main_v162)
      = Cert.Sage.netKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.Layers.layer2, Cert.KernelIdeal.Layers.layer1, Cert.KernelIdeal.Layers.layer0]
  rfl

theorem reference_value (m' : (ℓ : Loc Cert.ReferenceIdeal.nD Cert.ReferenceIdeal.τ Cert.ReferenceIdeal.sig) → Buf (Elt Ideal) ℓ)
    (c : Dev Cert.ReferenceIdeal.nD) :
    after (Cert.ReferenceIdeal.HostRun.ops (F := Ideal)) (launchContents m' c) (Proc.devRef .tc Cert.ReferenceIdeal.main_v386)
      = Cert.Sage.netRef (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  rw [Cert.ReferenceIdeal.Layers.layer2, Cert.ReferenceIdeal.Layers.layer1, Cert.ReferenceIdeal.Layers.layer0]
  rfl

theorem reference_arg (m' : (ℓ : Loc Cert.ReferenceIdeal.nD Cert.ReferenceIdeal.τ Cert.ReferenceIdeal.sig) → Buf (Elt Ideal) ℓ)
    (c : Dev Cert.ReferenceIdeal.nD) (x : Ref Cert.ReferenceIdeal.sig .tc) (hx : x ∉ Cert.ReferenceIdeal.HostRun.writes) :
    after (Cert.ReferenceIdeal.HostRun.ops (F := Ideal)) (launchContents m' c) (Proc.devRef .tc x)
      = m' ((c.tc : Thread Cert.ReferenceIdeal.nD Cert.ReferenceIdeal.τ).loc x) :=
  Ssa.after_arg _ _ Cert.ReferenceIdeal.HostRun.ops_writes _ x hx

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c =>
    ⟨(h c _).trans (reference_arg m c _ (by decide)), (h c _).trans (reference_arg m c _ (by decide)),
     (h c _).trans (reference_arg m c _ (by decide)), (h c _).trans (reference_arg m c _ (by decide)),
     (h c _).trans (reference_arg m c _ (by decide)), (h c _).trans (reference_arg m c _ (by decide)),
     (h c _).trans (reference_arg m c _ (by decide)), (h c _).trans (reference_arg m c _ (by decide))⟩)
    (Cert.ReferenceIdeal.HostRun.run (F := Ideal) m ρ)

theorem algebraic : Cert.algebraic_KernelIdeal_ReferenceIdeal := by
  intro m ρ m' ρ' hpre hagree
  refine ⟨fun c => Cert.Sage.netKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono
      (fun _ h c => ⟨(h c).1.trans (kernel_value m ρ c), (h c).2⟩) (Cert.KernelIdeal.ValueRun.run (F := Ideal) m ρ)
  · refine (θ_run (Cert.ReferenceIdeal.defs (F := Ideal)) _ _).mono (fun _ h c => ⟨?_,
      (h c _).trans (reference_arg m' c _ (by decide)), (h c _).trans (reference_arg m' c _ (by decide)),
      (h c _).trans (reference_arg m' c _ (by decide)), (h c _).trans (reference_arg m' c _ (by decide)),
      (h c _).trans (reference_arg m' c _ (by decide)), (h c _).trans (reference_arg m' c _ (by decide)),
      (h c _).trans (reference_arg m' c _ (by decide)), (h c _).trans (reference_arg m' c _ (by decide))⟩)
      (Cert.ReferenceIdeal.HostRun.run (F := Ideal) m' ρ')
    rw [h c _, reference_value m' c, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.Sage.netKer_eq_netRef _ _ _ _ _ _ _ _ (Cert.Sage.srcInRange_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
